-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S4000x33 .f32 .bf16
  ∧ IdealRules.truncf_extf.Statement Cert.KernelIdeal.S4000x33 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x1 : Shape := ⟨2, ![1000000, 1]⟩
abbrev S1000000 : Shape := ⟨1, ![1000000]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S8192x16 : Shape := ⟨2, ![8192, 16]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S8192x16 : S_.BroadcastsInDim S8192x16 (![] : Fin 0 → Fin S8192x16.rank)
  reducesTo_S8192x16_S_d0_1 : S8192x16.ReducesTo [0, 1] S_

variable [Facts]

def fn_part4 {F : FTy → Type} [FloatOps F] (main_arg16 : FVec F S8192x16 .f32) (main_arg17 : FVec F S8192x16 .f32) (main_v63 : IVec S_ 1) (main_v67 : IVec S_ 1) : IVec S_ 1 :=
  let main_v68 : IVec S_ 1 := andi main_v63 main_v67
  let main_v69 : FVec F S8192x16 .f32 := Host.absf main_arg16
  let main_cst_26 : FVec F S_ .f32 := constant S_ .f32 0x7F800000#32
  let main_v70 : FVec F S8192x16 .f32 := broadcastInDim S8192x16 ![] bcast_S_S8192x16 main_cst_26
  let main_v71 : IVec S8192x16 1 := cmpf .olt main_v69 main_v70
  let main_c_27 : IVec S_ 1 := constantI S_ 1 1#1
  let main_v72 : IVec S_ 1 := (fun x v => Host.reduce IntOp.andi x v reducesTo_S8192x16_S_d0_1 h_S_) main_v71 main_c_27
  let main_v73 : IVec S_ 1 := andi main_v68 main_v72
  let main_v74 : FVec F S8192x16 .f32 := Host.absf main_arg17
  let main_cst_28 : FVec F S_ .f32 := constant S_ .f32 0x7F800000#32
  let main_v75 : FVec F S8192x16 .f32 := broadcastInDim S8192x16 ![] bcast_S_S8192x16 main_cst_28
  let main_v76 : IVec S8192x16 1 := cmpf .olt main_v74 main_v75
  let main_c_29 : IVec S_ 1 := constantI S_ 1 1#1
  let main_v77 : IVec S_ 1 := (fun x v => Host.reduce IntOp.andi x v reducesTo_S8192x16_S_d0_1 h_S_) main_v76 main_c_29
  let main_v78 : IVec S_ 1 := andi main_v73 main_v77
  main_v78

def fn_part3 {F : FTy → Type} [FloatOps F] (main_arg13 : FVec F S16 .f32) (main_arg14 : FVec F S64x16 .f32) (main_arg15 : FVec F S16 .f32) (main_arg16 : FVec F S8192x16 .f32) (main_arg17 : FVec F S8192x16 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S64x16 .f32 := Host.absf main_arg14
  let main_cst_22 : FVec F S_ .f32 := constant S_ .f32 0x7F800000#32
  let main_v60 : FVec F S64x16 .f32 := broadcastInDim S64x16 ![] bcast_S_S64x16 main_cst_22
  let main_v61 : IVec S64x16 1 := cmpf .olt main_v59 main_v60
  let main_c_23 : IVec S_ 1 := constantI S_ 1 1#1
  let main_v62 : IVec S_ 1 := (fun x v => Host.reduce IntOp.andi x v reducesTo_S64x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg16 main_arg17 main_v63 main_v67

def fn_part2 {F : FTy → Type} [FloatOps F] (main_arg9 : FVec F S16 .f32) (main_arg10 : FVec F S64x16 .f32) (main_arg11 : FVec F S16 .f32) (main_arg12 : FVec F S64x16 .f32) (main_arg13 : FVec F S16 .f32) (main_arg14 : FVec F S64x16 .f32) (main_arg15 : FVec F S16 .f32) (main_arg16 : FVec F S8192x16 .f32) (main_arg17 : FVec F S8192x16 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S64x16 .f32 := Host.absf main_arg12
  let main_cst_18 : FVec F S_ .f32 := constant S_ .f32 0x7F800000#32
  let main_v50 : FVec F S64x16 .f32 := broadcastInDim S64x16 ![] bcast_S_S64x16 main_cst_18
  fn_part3 (F := F) main_arg13 main_arg14 main_arg15 main_arg16 main_arg17 main_v48 main_v49 main_v50

def fn_part1 {F : FTy → Type} [FloatOps F] (main_arg6 : FVec F S128x64 .f32) (main_arg7 : FVec F S64 .f32) (main_arg8 : FVec F S64x16 .f32) (main_arg9 : FVec F S16 .f32) (main_arg10 : FVec F S64x16 .f32) (main_arg11 : FVec F S16 .f32) (main_arg12 : FVec F S64x16 .f32) (main_arg13 : FVec F S16 .f32) (main_arg14 : FVec F S64x16 .f32) (main_arg15 : FVec F S16 .f32) (main_arg16 : FVec F S8192x16 .f32) (main_arg17 : FVec F S8192x16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg8
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S1000000x64 .f32) (main_arg1 : FVec F S1000000x1 .f32) (main_arg2 : IVec S1000000 32) (main_arg3 : IVec S1000000 32) (main_arg4 : FVec F S65x128 .f32) (main_arg5 : FVec F S128 .f32) (main_arg6 : FVec F S128x64 .f32) (main_arg7 : FVec F S64 .f32) (main_arg8 : FVec F S64x16 .f32) (main_arg9 : FVec F S16 .f32) (main_arg10 : FVec F S64x16 .f32) (main_arg11 : FVec F S16 .f32) (main_arg12 : FVec F S64x16 .f32) (main_arg13 : FVec F S16 .f32) (main_arg14 : FVec F S64x16 .f32) (main_arg15 : FVec F S16 .f32) (main_arg16 : FVec F S8192x16 .f32) (main_arg17 : FVec F S8192x16 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S65x128 .f32 := Host.absf main_arg4
  let main_cst_2 : FVec F S_ .f32 := constant S_ .f32 0x7F800000#32
  let main_v10 : FVec F S65x128 .f32 := broadcastInDim S65x128 ![] bcast_S_S65x128 main_cst_2
  let main_v11 : IVec S65x128 1 := cmpf .olt main_v9 main_v10
  let main_c_3 : IVec S_ 1 := constantI S_ 1 1#1
  let main_v12 : IVec S_ 1 := (fun x v => Host.reduce IntOp.andi x v reducesTo_S65x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S1000000x64 : Shape := ⟨2, ![1000000, 64]⟩
abbrev S1000000x1 : Shape := ⟨2, ![1000000, 1]⟩
abbrev S1000000 : Shape := ⟨1, ![1000000]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S8192x16 : Shape := ⟨2, ![8192, 16]⟩
abbrev S64x128 : Shape := ⟨2, ![64, 128]⟩
abbrev S1x128 : Shape := ⟨2, ![1, 128]⟩
abbrev S64x32 : Shape := ⟨2, ![64, 32]⟩
abbrev S2x33x8192 : Shape := ⟨3, ![2, 33, 8192]⟩
abbrev S4000x64 : Shape := ⟨2, ![4000, 64]⟩
abbrev S4000x1 : Shape := ⟨2, ![4000, 1]⟩
abbrev S1x33x8192 : Shape := ⟨3, ![1, 33, 8192]⟩
abbrev S33x8192 : Shape := ⟨2, ![33, 8192]⟩
abbrev S4000x128 : Shape := ⟨2, ![4000, 128]⟩
abbrev S1x64 : Shape := ⟨2, ![1, 64]⟩
abbrev S4000x32 : Shape := ⟨2, ![4000, 32]⟩
abbrev S4000x33 : Shape := ⟨2, ![4000, 33]⟩
abbrev S1x2048 : Shape := ⟨2, ![1, 2048]⟩
abbrev S4000x2048 : Shape := ⟨2, ![4000, 2048]⟩
abbrev S33x2048 : Shape := ⟨2, ![33, 2048]⟩
abbrev S6x8192x16 : Shape := ⟨3, ![6, 8192, 16]⟩
abbrev S2x33x1024 : Shape := ⟨3, ![2, 33, 1024]⟩
abbrev S1024x16 : Shape := ⟨2, ![1024, 16]⟩
abbrev S6x1024x16 : Shape := ⟨3, ![6, 1024, 16]⟩
abbrev S1x33x1024 : Shape := ⟨3, ![1, 33, 1024]⟩
abbrev S33x1024 : Shape := ⟨2, ![33, 1024]⟩
abbrev S32x1024 : Shape := ⟨2, ![32, 1024]⟩
abbrev S1x1024 : Shape := ⟨2, ![1, 1024]⟩
abbrev S1024x32 : Shape := ⟨2, ![1024, 32]⟩
abbrev S1x16 : Shape := ⟨2, ![1, 16]⟩
abbrev S1x1024x16 : Shape := ⟨3, ![1, 1024, 16]⟩

abbrev nBuf : Space → Nat
  | .hbm => 27
  | .vmem => 35
  | .smem => 0
  | _ => 0

abbrev bufTy : (tb : Table) → Fin (tcTables nBuf tb) → BufTy
  | .hbm, ⟨0, _⟩ => ⟨S1000000x64, .f32⟩
  | .hbm, ⟨1, _⟩ => ⟨S1000000x1, .f32⟩
  | .hbm, ⟨2, _⟩ => ⟨S1000000, .i32⟩
  | .hbm, ⟨3, _⟩ => ⟨S1000000, .i32⟩
  | .hbm, ⟨4, _⟩ => ⟨S65x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S64x16, .f32⟩
  | .hbm, ⟨11, _⟩ => ⟨S16, .f32⟩
  | .hbm, ⟨12, _⟩ => ⟨S64x16, .f32⟩
  | .hbm, ⟨13, _⟩ => ⟨S16, .f32⟩
  | .hbm, ⟨14, _⟩ => ⟨S64x16, .f32⟩
  | .hbm, ⟨15, _⟩ => ⟨S16, .f32⟩
  | .hbm, ⟨16, _⟩ => ⟨S8192x16, .f32⟩
  | .hbm, ⟨17, _⟩ => ⟨S8192x16, .f32⟩
  | .hbm, ⟨18, _⟩ => ⟨S64x128, .f32⟩
  | .hbm, ⟨19, _⟩ => ⟨S1x128, .f32⟩
  | .hbm, ⟨20, _⟩ => ⟨S1000000x1, .i32⟩
  | .hbm, ⟨21, _⟩ => ⟨S1000000x1, .i32⟩
  | .hbm, ⟨22, _⟩ => ⟨S64x32, .f32⟩
  | .hbm, ⟨23, _⟩ => ⟨S64x32, .f32⟩
  | .hbm, ⟨24, _⟩ => ⟨S2x33x8192, .f32⟩
  | .hbm, ⟨25, _⟩ => ⟨S2x33x8192, .f32⟩
  | .hbm, ⟨26, _⟩ => ⟨S6x8192x16, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x1, .i32⟩
  | .local _ .vmem, ⟨5, _⟩ => ⟨S4000x1, .i32⟩
  | .local _ .vmem, ⟨6, _⟩ => ⟨S4000x1, .i32⟩
  | .local _ .vmem, ⟨7, _⟩ => ⟨S4000x1, .i32⟩
  | .local _ .vmem, ⟨8, _⟩ => ⟨S64x128, .f32⟩
  | .local _ .vmem, ⟨9, _⟩ => ⟨S1x128, .f32⟩
  | .local _ .vmem, ⟨10, _⟩ => ⟨S128, .f32⟩
  | .local _ .vmem, ⟨11, _⟩ => ⟨S128x64, .f32⟩
  | .local _ .vmem, ⟨12, _⟩ => ⟨S64, .f32⟩
  | .local _ .vmem, ⟨13, _⟩ => ⟨S64x32, .f32⟩
  | .local _ .vmem, ⟨14, _⟩ => ⟨S64x32, .f32⟩
  | .local _ .vmem, ⟨15, _⟩ => ⟨S1x33x8192, .f32⟩
  | .local _ .vmem, ⟨16, _⟩ => ⟨S1x33x8192, .f32⟩
  | .local _ .vmem, ⟨17, _⟩ => ⟨S1x33x8192, .f32⟩
  | .local _ .vmem, ⟨18, _⟩ => ⟨S1x33x8192, .f32⟩
  | .local _ .vmem, ⟨19, _⟩ => ⟨S33x8192, .f32⟩
  | .local _ .vmem, ⟨20, _⟩ => ⟨S33x8192, .f32⟩
  | .local _ .vmem, ⟨21, _⟩ => ⟨S2x33x1024, .f32⟩
  | .local _ .vmem, ⟨22, _⟩ => ⟨S2x33x1024, .f32⟩
  | .local _ .vmem, ⟨23, _⟩ => ⟨S2x33x1024, .f32⟩
  | .local _ .vmem, ⟨24, _⟩ => ⟨S2x33x1024, .f32⟩
  | .local _ .vmem, ⟨25, _⟩ => ⟨S16, .f32⟩
  | .local _ .vmem, ⟨26, _⟩ => ⟨S16, .f32⟩
  | .local _ .vmem, ⟨27, _⟩ => ⟨S16, .f32⟩
  | .local _ .vmem, ⟨28, _⟩ => ⟨S16, .f32⟩
  | .local _ .vmem, ⟨29, _⟩ => ⟨S1024x16, .f32⟩
  | .local _ .vmem, ⟨30, _⟩ => ⟨S1024x16, .f32⟩
  | .local _ .vmem, ⟨31, _⟩ => ⟨S1024x16, .f32⟩
  | .local _ .vmem, ⟨32, _⟩ => ⟨S1024x16, .f32⟩
  | .local _ .vmem, ⟨33, _⟩ => ⟨S6x1024x16, .f32⟩
  | .local _ .vmem, ⟨34, _⟩ => ⟨S6x1024x16, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32

abbrev nD : Nat := 1
abbrev τ : Topo := Topo.v7x

variable {F : FTy → Type} [FloatOps F]

abbrev grid0 : Pipeline.Grid := ⟨2, ![2, 125], ![false, false]⟩

@[reducible] def k0_t1_loop : Scf.Loop 32 :=
  let c0_i32_24 : BitVec 32 := 0#32
  let c4_i32 : BitVec 32 := 4#32
  let v47 : BitVec 32 := Scalar.addi c0_i32_24 c4_i32
  let c1_i32 : BitVec 32 := 1#32
  ⟨c0_i32_24, v47, c1_i32⟩
def k0_mult1 (k0_t1 : Fin k0_t1_loop.trips) : BitVec 32 :=
  let c0_i32_34 : BitVec 32 := 0#32
  let c0_i32_24 : BitVec 32 := 0#32
  let c1_i32 : BitVec 32 := 1#32
  let arg17 : BitVec 32 := Scf.iv c0_i32_24 c1_i32 k0_t1
  let c1_i32_33 : BitVec 32 := 1#32
  let v54 : BitVec 32 := Scalar.muli arg17 c1_i32_33
  let v55 : BitVec 32 := Scalar.addi c0_i32_34 v54
  let c2048_i32 : BitVec 32 := 2048#32
  let v56 : BitVec 32 := Scalar.muli v55 c2048_i32
  v56
def k0_off1 (k0_t1 : Fin k0_t1_loop.trips) : Fin 2 → Nat :=
  let c0_37 : Index := 0#32
  let c0_i32_34 : BitVec 32 := 0#32
  let c0_i32_24 : BitVec 32 := 0#32
  let c1_i32 : BitVec 32 := 1#32
  let arg17 : BitVec 32 := Scf.iv c0_i32_24 c1_i32 k0_t1
  let c1_i32_33 : BitVec 32 := 1#32
  let v54 : BitVec 32 := Scalar.muli arg17 c1_i32_33
  let v55 : BitVec 32 := Scalar.addi c0_i32_34 v54
  let c2048_i32 : BitVec 32 := 2048#32
  let v56 : BitVec 32 := Scalar.muli v55 c2048_i32
  let v57 : BitVec 32 := v56
  let v70 : Index := Scalar.indexCast v57
  ![0, v70.toNat]
@[reducible] def k0_t2_loop : Scf.Loop 32 :=
  let c0_i32_28 : BitVec 32 := 0#32
  let c4_i32_29 : BitVec 32 := 4#32
  let v50 : BitVec 32 := Scalar.addi c0_i32_28 c4_i32_29
  let c1_i32_30 : BitVec 32 := 1#32
  ⟨c0_i32_28, v50, c1_i32_30⟩
def k0_mult2 (k0_t2 : Fin k0_t2_loop.trips) : BitVec 32 :=
  let c0_i32_34 : BitVec 32 := 0#32
  let c0_i32_28 : BitVec 32 := 0#32
  let c1_i32_30 : BitVec 32 := 1#32
  let arg17 : BitVec 32 := Scf.iv c0_i32_28 c1_i32_30 k0_t2
  let c1_i32_33 : BitVec 32 := 1#32
  let v54 : BitVec 32 := Scalar.muli arg17 c1_i32_33
  let v55 : BitVec 32 := Scalar.addi c0_i32_34 v54
  let c2048_i32 : BitVec 32 := 2048#32
  let v56 : BitVec 32 := Scalar.muli v55 c2048_i32
  v56
def k0_off2 (k0_t2 : Fin k0_t2_loop.trips) : Fin 2 → Nat :=
  let c0_37 : Index := 0#32
  let c0_i32_34 : BitVec 32 := 0#32
  let c0_i32_28 : BitVec 32 := 0#32
  let c1_i32_30 : BitVec 32 := 1#32
  let arg17 : BitVec 32 := Scf.iv c0_i32_28 c1_i32_30 k0_t2
  let c1_i32_33 : BitVec 32 := 1#32
  let v54 : BitVec 32 := Scalar.muli arg17 c1_i32_33
  let v55 : BitVec 32 := Scalar.addi c0_i32_34 v54
  let c2048_i32 : BitVec 32 := 2048#32
  let v56 : BitVec 32 := Scalar.muli v55 c2048_i32
  let v57 : BitVec 32 := v56
  let v70 : Index := Scalar.indexCast v57
  ![0, v70.toNat]
def k0_cond2 (i : grid0.Coords) : BitVec 1 :=
  let arg1 : BitVec 32 := BitVec.ofNat 32 (i 1).val
  let c124_i32 : BitVec 32 := 124#32
  let v51 : BitVec 1 := Scalar.cmpi .eq arg1 c124_i32
  let v52 : BitVec 32 := Scalar.extui v51
  let c0_i32_32 : BitVec 32 := 0#32
  let v53 : BitVec 1 := Scalar.cmpi .ne v52 c0_i32_32
  v53

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x33x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x33x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x33x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x33x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6x1024x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S65x128_S64x128_0_0 : S65x128.Slices ![0, 0] S64x128
  slices_S65x128_S1x128_64_0 : S65x128.Slices ![64, 0] S1x128
  shapeCasts_S1000000_S1000000x1 : S1000000.ShapeCasts S1000000x1
  concatenates_S64x16_S64x16_S64x32_d1 : Shape.Concatenates [S64x16, S64x16] S64x32 1
  inb_S33x8192_S33x8192_0_0 : ∀ a, (![0, 0] : Fin 2 → Nat) a + S33x8192.size a ≤ S33x8192.size a
  h_S33x8192 : 0 < S33x8192.numel
  shapeCasts_S33x8192_S33x8192 : S33x8192.ShapeCasts S33x8192
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  concatenates_S4000x32_S4000x1_S4000x33_d1 : Shape.Concatenates [S4000x32, S4000x1] S4000x33 1
  bitsLt_bf16_f32 : FTy.bits .bf16 < FTy.bits .f32
  shapeCasts_S4000x1_S4000x1 : S4000x1.ShapeCasts S4000x1
  iota_S1x2048_d1_w32 : S1x2048.Iotas .tc 32 [1]
  broadcasts_S4000x1_S4000x2048 : S4000x1.Broadcasts S4000x2048
  broadcasts_S1x2048_S4000x2048 : S1x2048.Broadcasts S4000x2048
  natLt_1_32 : 1 < 32
  h_S33x2048 : 0 < S33x2048.numel
  shapeCasts_S33x2048_S33x2048 : S33x2048.ShapeCasts S33x2048
  inb_S1x33x8192_S1x33x8192_0_0_0 : ∀ a, (![0, 0, 0] : Fin 3 → Nat) a + S1x33x8192.size a ≤ S1x33x8192.size a
  h_S1x33x8192 : 0 < S1x33x8192.numel
  shapeCasts_S1x33x8192_S33x8192 : S1x33x8192.ShapeCasts S33x8192
  shapeCasts_S33x8192_S1x33x8192 : S33x8192.ShapeCasts S1x33x8192
  inb_S2x33x1024_S1x33x1024_0_0_0 : ∀ a, (![0, 0, 0] : Fin 3 → Nat) a + S1x33x1024.size a ≤ S2x33x1024.size a
  h_S1x33x1024 : 0 < S1x33x1024.numel
  shapeCasts_S1x33x1024_S33x1024 : S1x33x1024.ShapeCasts S33x1024
  inb_S2x33x1024_S1x33x1024_1_0_0 : ∀ a, (![1, 0, 0] : Fin 3 → Nat) a + S1x33x1024.size a ≤ S2x33x1024.size a
  slices_S33x1024_o0_0_S32x1024 : S33x1024.Slices ![0, 0] S32x1024
  slices_S33x1024_o32_0_S1x1024 : S33x1024.Slices ![32, 0] S1x1024
  broadcasts_S1x1024_S32x1024 : S1x1024.Broadcasts S32x1024
  transposes_S32x1024_p1_0_S1024x32 : S32x1024.Transposes [1, 0] S1024x32
  slices_S1024x32_o0_0_S1024x16 : S1024x32.Slices ![0, 0] S1024x16
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  slices_S1024x32_o0_16_S1024x16 : S1024x32.Slices ![0, 16] S1024x16
  inb_S1024x16_S1024x16_0_0 : ∀ a, (![0, 0] : Fin 2 → Nat) a + S1024x16.size a ≤ S1024x16.size a
  h_S1024x16 : 0 < S1024x16.numel
  inb_S6x1024x16_S1x1024x16_0_0_0 : ∀ a, (![0, 0, 0] : Fin 3 → Nat) a + S1x1024x16.size a ≤ S6x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  inb_S6x1024x16_S1x1024x16_1_0_0 : ∀ a, (![1, 0, 0] : Fin 3 → Nat) a + S1x1024x16.size a ≤ S6x1024x16.size a
  inb_S6x1024x16_S1x1024x16_2_0_0 : ∀ a, (![2, 0, 0] : Fin 3 → Nat) a + S1x1024x16.size a ≤ S6x1024x16.size a
  inb_S6x1024x16_S1x1024x16_3_0_0 : ∀ a, (![3, 0, 0] : Fin 3 → Nat) a + S1x1024x16.size a ≤ S6x1024x16.size a
  inb_S6x1024x16_S1x1024x16_4_0_0 : ∀ a, (![4, 0, 0] : Fin 3 → Nat) a + S1x1024x16.size a ≤ S6x1024x16.size a
  inb_S6x1024x16_S1x1024x16_5_0_0 : ∀ a, (![5, 0, 0] : Fin 3 → Nat) a + S1x1024x16.size a ≤ S6x1024x16.size a
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  dot_S4000x64_S64x32_S4000x32_1_0_0_1_n_n_wf : DotDims.WF S4000x64 S64x32 S4000x32 [1] [0] [0] [1] [] []
  dot_S4000x33_S4000x2048_S33x2048_0_0_1_1_n_n_wf : DotDims.WF S4000x33 S4000x2048 S33x2048 [0] [0] [1] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S33x2048.size a ≤ S33x8192.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S33x2048.size a ≤ S33x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .i32 = 32 ∨ (Rect.block (s := S1000000x1) S4000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .i32 = 32 ∨ (Rect.block (s := S1000000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .f32 = 32 ∨ (Rect.block (s := S64x32) S64x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x33x8192.size a ≤ S2x33x8192.size a
  hwx0_11 : ∀ i : grid0.Coords, EltTy.bits .f32 = 32 ∨ (Rect.block (s := S2x33x8192) S1x33x8192.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x33x8192.size a ≤ S2x33x8192.size a
  hwx0_12 : ∀ i : grid0.Coords, EltTy.bits .f32 = 32 ∨ (Rect.block (s := S2x33x8192) S1x33x8192.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x33x1024.size a ≤ S2x33x8192.size a
  hwx1_0 : ∀ i : grid1.Coords, EltTy.bits .f32 = 32 ∨ (Rect.block (s := S2x33x8192) S2x33x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x33x1024.size a ≤ S2x33x8192.size a
  hwx1_1 : ∀ i : grid1.Coords, EltTy.bits .f32 = 32 ∨ (Rect.block (s := S2x33x8192) S2x33x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x16.size a ≤ S8192x16.size a
  hwx1_6 : ∀ i : grid1.Coords, EltTy.bits .f32 = 32 ∨ (Rect.block (s := S8192x16) S1024x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x16.size a ≤ S8192x16.size a
  hwx1_7 : ∀ i : grid1.Coords, EltTy.bits .f32 = 32 ∨ (Rect.block (s := S8192x16) S1024x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6x1024x16.size a ≤ S6x8192x16.size a
  hwx1_8 : ∀ i : grid1.Coords, EltTy.bits .f32 = 32 ∨ (Rect.block (s := S6x8192x16) S6x1024x16.size (cc1_transform_8 i) (hinb1_8 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x33_S4000x2048_S33x2048_0_0_1_1_n_n : DotDims S4000x33 S4000x2048 S33x2048 where
  lhsContracting := [0]
  rhsContracting := [0]
  lhsNonContracting := [1]
  rhsNonContracting := [1]
  lhsBatch := []
  rhsBatch := []
  wf := dot_S4000x33_S4000x2048_S33x2048_0_0_1_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S1x33x8192.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S1x33x8192.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | ⟨_ + 13, h⟩ => absurd h (Nat.not_lt.2 (Nat.le_add_left _ _))

abbrev win1_0 : Pipeline.Window sig grid1 :=
  Pipeline.Window.ofSpec (Memref.whole main_v6_0) S2x33x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2x33x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S1024x16.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S1024x16.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7) S6x1024x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000x1 : Shape := ⟨2, ![1000000, 1]⟩
abbrev S1000000 : Shape := ⟨1, ![1000000]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S8192x16 : Shape := ⟨2, ![8192, 16]⟩
abbrev S1000000x65 : Shape := ⟨2, ![1000000, 65]⟩
abbrev S1000000x128 : Shape := ⟨2, ![1000000, 128]⟩
abbrev S1x128 : Shape := ⟨2, ![1, 128]⟩
abbrev S_ : Shape := ⟨0, ![]⟩
abbrev S1x64 : Shape := ⟨2, ![1, 64]⟩
abbrev S8192x64 : Shape := ⟨2, ![8192, 64]⟩
abbrev S8192 : Shape := ⟨1, ![8192]⟩
abbrev S8192x1 : Shape := ⟨2, ![8192, 1]⟩
abbrev S1x16 : Shape := ⟨2, ![1, 16]⟩
abbrev S1x8192x16 : Shape := ⟨3, ![1, 8192, 16]⟩
abbrev S6x8192x16 : Shape := ⟨3, ![6, 8192, 16]⟩

abbrev nBuf : Space → Nat
  | .hbm => 100
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x1, .f32⟩
  | .hbm, ⟨2, _⟩ => ⟨S1000000, .i32⟩
  | .hbm, ⟨3, _⟩ => ⟨S1000000, .i32⟩
  | .hbm, ⟨4, _⟩ => ⟨S65x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S64x16, .f32⟩
  | .hbm, ⟨11, _⟩ => ⟨S16, .f32⟩
  | .hbm, ⟨12, _⟩ => ⟨S64x16, .f32⟩
  | .hbm, ⟨13, _⟩ => ⟨S16, .f32⟩
  | .hbm, ⟨14, _⟩ => ⟨S64x16, .f32⟩
  | .hbm, ⟨15, _⟩ => ⟨S16, .f32⟩
  | .hbm, ⟨16, _⟩ => ⟨S8192x16, .f32⟩
  | .hbm, ⟨17, _⟩ => ⟨S8192x16, .f32⟩
  | .hbm, ⟨18, _⟩ => ⟨S1000000x65, .f32⟩
  | .hbm, ⟨19, _⟩ => ⟨S1000000x128, .f32⟩
  | .hbm, ⟨20, _⟩ => ⟨S1x128, .f32⟩
  | .hbm, ⟨21, _⟩ => ⟨S1000000x128, .f32⟩
  | .hbm, ⟨22, _⟩ => ⟨S1000000x128, .f32⟩
  | .hbm, ⟨23, _⟩ => ⟨S_, .f32⟩
  | .hbm, ⟨24, _⟩ => ⟨S1000000x128, .f32⟩
  | .hbm, ⟨25, _⟩ => ⟨S1000000x128, .f32⟩
  | .hbm, ⟨26, _⟩ => ⟨S1000000x64, .f32⟩
  | .hbm, ⟨27, _⟩ => ⟨S1x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S8192x64, .f32⟩
  | .hbm, ⟨35, _⟩ => ⟨S1000000x1, .i32⟩
  | .hbm, ⟨36, _⟩ => ⟨S8192x64, .f32⟩
  | .hbm, ⟨37, _⟩ => ⟨S_, .f32⟩
  | .hbm, ⟨38, _⟩ => ⟨S1000000, .f32⟩
  | .hbm, ⟨39, _⟩ => ⟨S_, .f32⟩
  | .hbm, ⟨40, _⟩ => ⟨S8192, .f32⟩
  | .hbm, ⟨41, _⟩ => ⟨S1000000x1, .i32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x64, .f32⟩
  | .hbm, ⟨48, _⟩ => ⟨S8192x64, .f32⟩
  | .hbm, ⟨49, _⟩ => ⟨S8192x16, .f32⟩
  | .hbm, ⟨50, _⟩ => ⟨S1x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S1x16, .f32⟩
  | .hbm, ⟨55, _⟩ => ⟨S8192x16, .f32⟩
  | .hbm, ⟨56, _⟩ => ⟨S8192x16, .f32⟩
  | .hbm, ⟨57, _⟩ => ⟨S_, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192x64, .f32⟩
  | .hbm, ⟨65, _⟩ => ⟨S1000000x1, .i32⟩
  | .hbm, ⟨66, _⟩ => ⟨S8192x64, .f32⟩
  | .hbm, ⟨67, _⟩ => ⟨S_, .f32⟩
  | .hbm, ⟨68, _⟩ => ⟨S1000000, .f32⟩
  | .hbm, ⟨69, _⟩ => ⟨S_, .f32⟩
  | .hbm, ⟨70, _⟩ => ⟨S8192, .f32⟩
  | .hbm, ⟨71, _⟩ => ⟨S1000000x1, .i32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1, .f32⟩
  | .hbm, ⟨77, _⟩ => ⟨S8192x64, .f32⟩
  | .hbm, ⟨78, _⟩ => ⟨S8192x64, .f32⟩
  | .hbm, ⟨79, _⟩ => ⟨S8192x16, .f32⟩
  | .hbm, ⟨80, _⟩ => ⟨S1x16, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S1x16, .f32⟩
  | .hbm, ⟨85, _⟩ => ⟨S8192x16, .f32⟩
  | .hbm, ⟨86, _⟩ => ⟨S8192x16, .f32⟩
  | .hbm, ⟨87, _⟩ => ⟨S_, .f32⟩
  | .hbm, ⟨88, _⟩ => ⟨S8192x16, .f32⟩
  | .hbm, ⟨89, _⟩ => ⟨S8192x16, .f32⟩
  | .hbm, ⟨90, _⟩ => ⟨S8192x16, .f32⟩
  | .hbm, ⟨91, _⟩ => ⟨S8192x16, .f32⟩
  | .hbm, ⟨92, _⟩ => ⟨S8192x16, .f32⟩
  | .hbm, ⟨93, _⟩ => ⟨S1x8192x16, .f32⟩
  | .hbm, ⟨94, _⟩ => ⟨S1x8192x16, .f32⟩
  | .hbm, ⟨95, _⟩ => ⟨S1x8192x16, .f32⟩
  | .hbm, ⟨96, _⟩ => ⟨S1x8192x16, .f32⟩
  | .hbm, ⟨97, _⟩ => ⟨S1x8192x16, .f32⟩
  | .hbm, ⟨98, _⟩ => ⟨S1x8192x16, .f32⟩
  | .hbm, ⟨99, _⟩ => ⟨S6x8192x16, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  concatenates_S1000000x64_S1000000x1_S1000000x65_d1 : Shape.Concatenates [S1000000x64, S1000000x1] S1000000x65 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S8192x64 : S_.BroadcastsInDim S8192x64 (![] : Fin 0 → Fin S8192x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S8192x16_S1x8192x16_1_2 : S8192x16.BroadcastsInDim S1x8192x16 (![1, 2] : Fin 2 → Fin S1x8192x16.rank)
  concatenates_S1x8192x16_S1x8192x16_S1x8192x16_S1x8192x16_S1x8192x16_S1x8192x16_S6x8192x16_d0 : Shape.Concatenates [S1x8192x16, S1x8192x16, S1x8192x16, S1x8192x16, S1x8192x16, S1x8192x16] S6x8192x16 0
  dot_S1000000x65_S65x128_S1000000x128_1_0_0_1_n_n_wf : DotDims.WF S1000000x65 S65x128 S1000000x128 [1] [0] [0] [1] [] []
  dot_S1000000x128_S128x64_S1000000x64_1_0_0_1_n_n_wf : DotDims.WF S1000000x128 S128x64 S1000000x64 [1] [0] [0] [1] [] []
  scatter_S8192x64_S1000000x1_S1000000x64_1_0_0_1_wf : ScatterDims.WF S8192x64 S1000000x1 S1000000x64 [1] [0] [0] 1
  scatter_S8192_S1000000x1_S1000000_n_0_0_1_wf : ScatterDims.WF S8192 S1000000x1 S1000000 [] [0] [0] 1
  dot_S8192x64_S64x16_S8192x16_1_0_0_1_n_n_wf : DotDims.WF S8192x64 S64x16 S8192x16 [1] [0] [0] [1] [] []

variable [Facts₀]

def dot_S1000000x65_S65x128_S1000000x128_1_0_0_1_n_n : DotDims S1000000x65 S65x128 S1000000x128 where
  lhsContracting := [1]
  rhsContracting := [0]
  lhsNonContracting := [0]
  rhsNonContracting := [1]
  lhsBatch := []
  rhsBatch := []
  wf := dot_S1000000x65_S65x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S8192x64_S1000000x1_S1000000x64_1_0_0_1 : ScatterDims S8192x64 S1000000x1 S1000000x64 where
  updateWindowDims := [1]
  insertedWindowDims := [0]
  scatterDimsToOperandDims := [0]
  indexVectorDim := 1
  wf := scatter_S8192x64_S1000000x1_S1000000x64_1_0_0_1_wf
def scatter_S8192_S1000000x1_S1000000_n_0_0_1 : ScatterDims S8192 S1000000x1 S1000000 where
  updateWindowDims := []
  insertedWindowDims := [0]
  scatterDimsToOperandDims := [0]
  indexVectorDim := 1
  wf := scatter_S8192_S1000000x1_S1000000_n_0_0_1_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

class Facts : Prop extends Facts₀ where

variable [Facts]
-- ==== Proof.KI.Shared0.lean ====
/-
  The accumulation region over a grid of 2 × 125 points: each window's block at a point, and the two conditions that
  select the body's case as facts about the point's number.
-/
import proofs.«418107_j79233556677137_3_alg».proof.Proof.Gen.KernelIdeal.Launch
import proofs.«418107_j79233556677137_3_alg».proof.Proof.Gen.KernelIdeal.Skeleton
import proofs.«418107_j79233556677137_3_alg».proof.Proof.Gen.KernelIdeal.Points
import proofs.«418107_j79233556677137_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

end Region0

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
theorem idleAt0_11_B : ∀ t : Fin cfg0.N, ¬cond0_0 (grid0.coords t) → ¬cond0_1 (grid0.coords t) → cfg0.idle 11 (grid0.coords t) = true := by decide +kernel
theorem noFlush0_11_B : ∀ t : Fin cfg0.N, ¬cond0_0 (grid0.coords t) → ¬cond0_1 (grid0.coords t) → (cfg0.win 11).flush t = false := by decide +kernel
theorem liveAt0_11_C : ∀ t : Fin cfg0.N, ¬cond0_0 (grid0.coords t) → cond0_1 (grid0.coords t) → cfg0.idle 11 (grid0.coords t) = false := by decide +kernel
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem idleAt0_12_B : ∀ t : Fin cfg0.N, ¬cond0_0 (grid0.coords t) → ¬cond0_1 (grid0.coords t) → cfg0.idle 12 (grid0.coords t) = true := by decide +kernel
theorem noFlush0_12_B : ∀ t : Fin cfg0.N, ¬cond0_0 (grid0.coords t) → ¬cond0_1 (grid0.coords t) → (cfg0.win 12).flush t = false := by decide +kernel
theorem liveAt0_12_C : ∀ t : Fin cfg0.N, ¬cond0_0 (grid0.coords t) → cond0_1 (grid0.coords t) → cfg0.idle 12 (grid0.coords t) = false := by decide +kernel

abbrev VO0_11 : View sig .tc .vmem S1x33x8192 .f32 := (Memref.whole cc0_stg11_0 : Memref sig .tc .vmem S1x33x8192 .f32).view
abbrev VO0_12 : View sig .tc .vmem S1x33x8192 .f32 := (Memref.whole cc0_stg12_0 : Memref sig .tc .vmem S1x33x8192 .f32).view
abbrev ms0_0 (t : Fin cfg0.N) : Memref sig .tc .vmem S4000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4000x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x33x8192 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x33x8192 .f32 := win0_12.stage (cfg0.slots t 12)
abbrev hs0_12 (t : Fin cfg0.N) : (ms0_12 t).IsWhole := hstage0_12 ((cfg0.slots t 12).cast nbuf0_12)
abbrev scM0_0 : Memref sig .tc .vmem S33x8192 .f32 := Memref.whole cc0_scratch0
abbrev scM0_1 : Memref sig .tc .vmem S33x8192 .f32 := Memref.whole cc0_scratch1
abbrev VS0_0 : View sig .tc .vmem S33x8192 .f32 := scM0_0.view
abbrev VS0_1 : View sig .tc .vmem S33x8192 .f32 := scM0_1.view

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Fr

end
-- ==== Proof.KI.Run0A.lean ====
/-
  The accumulation body at the first point of a core's walk: both accumulators zeroed, then the point's products added.
-/
import proofs.«418107_j79233556677137_3_alg».proof.Proof.KI.Shared0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole) (hc0 : cond0_0 i) (hc1 : ¬cond0_1 i)
    (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32) :
    Σ' (L11 : List (View.Piece (Elt F) S1x33x8192 .f32)) (L12 : List (View.Piece (Elt F) S1x33x8192 .f32)) (LS0 : List (View.Piece (Elt F) S33x8192 .f32)), { LS1 : List (View.Piece (Elt F) S33x8192 .f32) //
      ∀ (xi11 xi12 : Vec F S1x33x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, ?_, fun xi11 xi12 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.KernelIdeal.Fr

end
-- ==== Proof.KI.Run0B.lean ====
/-
  The accumulation body at a middle point of a core's walk: the point's products added to what the accumulators held.
-/
import proofs.«418107_j79233556677137_3_alg».proof.Proof.KI.Shared0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole) (hc0 : ¬cond0_0 i) (hc1 : ¬cond0_1 i)
    (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32) (xs0 xs1 : Vec F S33x8192 .f32) :
    Σ' (L11 : List (View.Piece (Elt F) S1x33x8192 .f32)) (L12 : List (View.Piece (Elt F) S1x33x8192 .f32)) (LS0 : List (View.Piece (Elt F) S33x8192 .f32)), { LS1 : List (View.Piece (Elt F) S33x8192 .f32) //
      ∀ (xi11 xi12 : Vec F S1x33x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, ?_, fun xi11 xi12 E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.KernelIdeal.Fr

end
-- ==== Proof.KI.Run0C.lean ====
/-
  The accumulation body at the last point of a core's walk: as at a middle point, then each accumulator copied whole
  to its output block.
-/
import proofs.«418107_j79233556677137_3_alg».proof.Proof.KI.Shared0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole) (hc0 : ¬cond0_0 i) (hc1 : cond0_1 i)
    (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32) (xs0 xs1 : Vec F S33x8192 .f32) :
    Σ' (L11 : List (View.Piece (Elt F) S1x33x8192 .f32)) (L12 : List (View.Piece (Elt F) S1x33x8192 .f32)) (LS0 : List (View.Piece (Elt F) S33x8192 .f32)), { LS1 : List (View.Piece (Elt F) S33x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__scatter_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__scatter_kernel_eq_skeleton]; unfold cc0__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [HS0]; · iexists _; iexact HS0
    iexists _; iexact HS1

end Cert.KernelIdeal.Fr

end
-- ==== Proof.KI.Frame0.lean ====
/-
  What the two accumulators and the two output blocks hold after the accumulation body at each of the 250
  points, as a recursion on the point, and the body's obligation at every point.
-/
import proofs.«418107_j79233556677137_3_alg».proof.Proof.KI.Run0A
import proofs.«418107_j79233556677137_3_alg».proof.Proof.KI.Run0B
import proofs.«418107_j79233556677137_3_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two output buffers and the two accumulators, each read back from the pieces a run of the body stored into it. -/
def rd4 (L11 L12 : List (View.Piece (Elt F) S1x33x8192 .f32)) (LS0 LS1 : List (View.Piece (Elt F) S33x8192 .f32)) :
    Vec F S1x33x8192 .f32 × Vec F S1x33x8192 .f32 × Vec F S33x8192 .f32 × Vec F S33x8192 .f32 :=
  (VO0_11.read (Elt F) (VO0_11.writes (Elt F) VO0_11.junk L11), VO0_12.read (Elt F) (VO0_12.writes (Elt F) VO0_12.junk L12),
    VS0_0.read (Elt F) (VS0_0.writes (Elt F) VS0_0.junk LS0), VS0_1.read (Elt F) (VS0_1.writes (Elt F) VS0_1.junk LS1))

section Cases
variable (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole)

section
variable (hc0 : cond0_0 i) (hc1 : ¬cond0_1 i) (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32)

theorem scover0_A_0 (y : S33x8192.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1, y ∈ pc.1.set :=
  View.cover_of_wholeMem _ (by sl_whole_mem) y
theorem scover0_A_1 (y : S33x8192.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2.1, y ∈ pc.1.set :=
  View.cover_of_wholeMem _ (by sl_whole_mem) y

def outs0_A :=
  let r := kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
  rd4 r.1 r.2.1 r.2.2.1 r.2.2.2.1

end

section
variable (hc0 : ¬cond0_0 i) (hc1 : ¬cond0_1 i) (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32) (xs0 xs1 : Vec F S33x8192 .f32)

theorem scover0_B_0 (y : S33x8192.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.1, y ∈ pc.1.set :=
  View.cover_of_tiledL (s := S33x8192) _ S33x2048.size (by sl_kernel_rfl) y
theorem scover0_B_1 (y : S33x8192.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.2.1, y ∈ pc.1.set :=
  View.cover_of_tiledL (s := S33x8192) _ S33x2048.size (by sl_kernel_rfl) y

def outs0_B :=
  let r := kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1
  rd4 r.1 r.2.1 r.2.2.1 r.2.2.2.1

end

section
variable (hc0 : ¬cond0_0 i) (hc1 : cond0_1 i) (x0 : Vec F S4000x64 .f32) (x1 : Vec F S4000x1 .f32) (x2 : Vec F S4000x1 .i32) (x3 : Vec F S4000x1 .i32) (x4 : Vec F S64x128 .f32) (x5 : Vec F S1x128 .f32) (x6 : Vec F S128 .f32) (x7 : Vec F S128x64 .f32) (x8 : Vec F S64 .f32) (x9 : Vec F S64x32 .f32) (x10 : Vec F S64x32 .f32) (xs0 xs1 : Vec F S33x8192 .f32)

theorem cover0_C_11 (y : S1x33x8192.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).1, y ∈ pc.1.set :=
  View.cover_of_tiledL _ S1x33x8192.size (by sl_kernel_rfl) y
theorem cover0_C_12 (y : S1x33x8192.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.1, y ∈ pc.1.set :=
  View.cover_of_tiledL _ S1x33x8192.size (by sl_kernel_rfl) y
theorem scover0_C_0 (y : S33x8192.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.1, y ∈ pc.1.set :=
  View.cover_of_tiledL (s := S33x8192) _ S33x2048.size (by sl_kernel_rfl) y
theorem scover0_C_1 (y : S33x8192.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.2.1, y ∈ pc.1.set :=
  View.cover_of_tiledL (s := S33x8192) _ S33x2048.size (by sl_kernel_rfl) y

def outs0_C :=
  let r := kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1
  rd4 r.1 r.2.1 r.2.2.1 r.2.2.2.1

end

end Cases

section Region0Dat

variable (V : (c : Dev nD) → (b : Ref sig .tc) → Buf (Elt F) ((c : Thread nD τ).loc b))

/-- What the body leaves at point t, by the case t is in; B and C start from the accumulators xs0, xs1 the point before left. -/
def stepA (c : Dev nD) (t : Fin cfg0.N) (h0 : t.val % 125 = 0) (h1 : ¬t.val % 125 = 124) :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
def stepB (c : Dev nD) (t : Fin cfg0.N) (h0 : ¬t.val % 125 = 0) (h1 : ¬t.val % 125 = 124) (xs0 xs1 : Vec F S33x8192 .f32) :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs0 xs1
def stepC (c : Dev nD) (t : Fin cfg0.N) (h0 : ¬t.val % 125 = 0) (h1 : t.val % 125 = 124) (xs0 xs1 : Vec F S33x8192 .f32) :=
  outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs0 xs1

/-- The recursion on the point: a first point of a walk resets, a last one also copies out, and no point is both. -/
def outsAt0 (c : Dev nD) : (n : ℕ) → n < cfg0.N → Vec F S1x33x8192 .f32 × Vec F S1x33x8192 .f32 × Vec F S33x8192 .f32 × Vec F S33x8192 .f32
  | 0, hn => stepA V c ⟨0, hn⟩ (Nat.zero_mod _) (show ¬0 % 125 = 124 by decide)
  | n + 1, hn =>
    if h0 : (n + 1) % 125 = 0 then
      if h1 : (n + 1) % 125 = 124 then False.elim (by omega) else stepA V c ⟨n + 1, hn⟩ h0 h1
    else if h1 : (n + 1) % 125 = 124 then
      stepC V c ⟨n + 1, hn⟩ h0 h1 (outsAt0 c n (Nat.lt_of_succ_lt hn)).2.2.1 (outsAt0 c n (Nat.lt_of_succ_lt hn)).2.2.2
    else
      stepB V c ⟨n + 1, hn⟩ h0 h1 (outsAt0 c n (Nat.lt_of_succ_lt hn)).2.2.1 (outsAt0 c n (Nat.lt_of_succ_lt hn)).2.2.2

theorem outsAt0_A (c : Dev nD) (t : Fin cfg0.N) (h0 : t.val % 125 = 0) (h1 : ¬t.val % 125 = 124) :
    outsAt0 V c t.val t.isLt = stepA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 125 = 0) (h1 : ¬t.val % 125 = 124) :
    outsAt0 V c t.val t.isLt = stepB V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 125 = 0) (h1 : t.val % 125 = 124) :
    outsAt0 V c t.val t.isLt = stepC V c t h0 h1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-- At every position the invariant gives back what the launch handed the region: the accumulators' contents forgotten. -/
theorem PhiS_forget (c : Dev nD) (n : ℕ) (h : n ≤ cfg0.N) : PhiS V c n h ⊢ Pipeline.ΦA spec0 c := by
  cases n with
  | zero => exact .rfl
  | succ n =>
    rw [PhiS_succ, PhiA0_eq]
    iintro ⟨⟨HS0, HS1, Hr⟩, Hg⟩
    isplitl [HS0 HS1 Hr]
    · isplitl [HS0]; · iexists _; iexact HS0
      isplitl [HS1]; · iexists _; iexact HS1
      iexact Hr
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (outsAt0 V c t.val t.isLt).1
    | ⟨12, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (outsAt0 V c t.val t.isLt).1 := by dsimp only [dat0]
theorem after0_12 (c : Dev nD) (t : Fin cfg0.N) : (dat0 V c).after 12 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.succ = PhiS V c (t.val + 1) t.isLt from rfl, PhiS_succ]
  have hN : t.val < 250 := lt_of_lt_of_eq t.isLt (show cfg0.N = 250 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  by_cases h0 : t.val % 125 = 0
  · by_cases h1 : t.val % 125 = 124
    · exfalso; omega
    · rw [Dat.leavesExact_idle (dat0 V c) 11 t (idleAt0_11_A t ((hcond0_0 t).mpr h0) (fun h => h1 ((hcond0_1 t).mp h))) (noFlush0_11_A t ((hcond0_0 t).mpr h0) (fun h => h1 ((hcond0_1 t).mp h)))]
      rw [Dat.leavesExact_idle (dat0 V c) 12 t (idleAt0_12_A t ((hcond0_0 t).mpr h0) (fun h => h1 ((hcond0_1 t).mp h))) (noFlush0_12_A t ((hcond0_0 t).mpr h0) (fun h => h1 ((hcond0_1 t).mp h)))]
      rw [outsAt0_A V c t h0 h1]
      unfold stepA outs0_A rd4; dsimp only
      rw [PhiS_castSucc V c t]
      refine (sep_mono_left (PhiS_forget V c _ _)).trans ?_
      rw [PhiA0_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _)
          iexact Hr
        iexact Hg
      iframe Ho H0 H1 H2 H3 H4 H5 H6 H7 H8 H9 H10
      isplitl [H11]; · iexists _; iexact H11
      iexists _; iexact H12
  · by_cases h1 : t.val % 125 = 124
    · rw [show (dat0 V c).leavesExact 11 t = owns (c : Thread nD τ) (ms0_11 t) fullShare ((dat0 V c).after 11 t) from by
        unfold Dat.leavesExact; rw [liveAt0_11_C t (fun h => h0 ((hcond0_0 t).mp h)) ((hcond0_1 t).mpr h1)], after0_11]
      rw [show (dat0 V c).leavesExact 12 t = owns (c : Thread nD τ) (ms0_12 t) fullShare ((dat0 V c).after 12 t) from by
        unfold Dat.leavesExact; rw [liveAt0_12_C t (fun h => h0 ((hcond0_0 t).mp h)) ((hcond0_1 t).mpr h1)], after0_12]
      rw [outsAt0_C V c t h0 h1]
      unfold stepC outs0_C rd4; dsimp only
      by_cases hz : t.val = 0
      · exfalso; omega
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        isplitl [HS1]; · iexact HS1
        iintro ⟨H0, H1, H2, H3, H4, H5, H6, H7, H8, H9, H10, ⟨%e11, H11⟩, ⟨%e12, H12⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _)
            iexact Hr
          iexact Hg
        iframe Ho H0 H1 H2 H3 H4 H5 H6 H7 H8 H9 H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _)
    · rw [Dat.leavesExact_idle (dat0 V c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dat0 V c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      rw [outsAt0_B V c t h0 h1]
      unfold stepB outs0_B rd4; dsimp only
      by_cases hz : t.val = 0
      · exfalso; omega
      · rw [PhiS_castSucc V c t, PhiS_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        iintro ⟨H0, H1, H2, H3, H4, H5, H6, H7, H8, H9, H10, H11, H12, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _)
            iexact Hr
          iexact Hg
        iframe Ho H0 H1 H2 H3 H4 H5 H6 H7 H8 H9 H10
        isplitl [H11]; · iexists _; iexact H11
        iexists _; iexact H12

theorem body_obligation0 (c : Dev nD) : BodyObligation (dat0 (F := F) V c) (defs₀ (F := F)) Variants.none () Set.univ := fun t => by
  rw [bigSep_W0, bigSep_W0]
  exact sound_body0 V c t

theorem Phi_out0 (c : Dev nD) (t : Fin (cfg0.N + 1)) (ht : t.val ≠ 0) : (dat0 V c).Φ t ⊢ Pipeline.ΦA spec0 c :=
  PhiS_forget V c _ _

theorem hout0 (c : Dev nD) : (dat0 V c).Φ (Fin.last cfg0.N) ⊢ Pipeline.ΦA spec0 c :=
  Phi_out0 V c _ (by rw [Fin.val_last]; have : cfg0.N = 250 := N_0; omega)

end Region0Dat

end Cert.KernelIdeal.Fr

end
-- ==== Proof.Spec.lean ====
/-
  The result as a function of the eighteen arguments in two arrangements: the reference's (per-bucket sums divided by
  max(count, 1), then projected) and the kernel's (rows projected first, accumulated per core over blocks of 4000 rows).
-/
import Idealize.ShloMosaic.PureOps.Ideal
import Mathlib.Algebra.BigOperators.Fin

noncomputable section

namespace Cert.Spec

open Idealize.ShloMosaic
open scoped BigOperators

abbrev zero : EReal := Ideal.ofBits .f32 0x00000000#32
abbrev one : EReal := Ideal.ofBits .f32 0x3F800000#32
abbrev half : EReal := Ideal.ofBits .f32 0x3F000000#32

structure Args where
  X : Fin 1000000 → Fin 64 → EReal
  y : Fin 1000000 → EReal
  id0 : Fin 1000000 → BitVec 32
  id1 : Fin 1000000 → BitVec 32
  W0 : Fin 65 → Fin 128 → EReal
  b0 : Fin 128 → EReal
  W1 : Fin 128 → Fin 64 → EReal
  b1 : Fin 64 → EReal
  Wm0 : Fin 64 → Fin 16 → EReal
  bm0 : Fin 16 → EReal
  Wv0 : Fin 64 → Fin 16 → EReal
  bv0 : Fin 16 → EReal
  Wm1 : Fin 64 → Fin 16 → EReal
  bm1 : Fin 16 → EReal
  Wv1 : Fin 64 → Fin 16 → EReal
  bv1 : Fin 16 → EReal
  eps0 : Fin 8192 → Fin 16 → EReal
  eps1 : Fin 8192 → Fin 16 → EReal

structure Args.Real (A : Args) : Prop where
  X : ∀ n j, ∃ r : ℝ, A.X n j = (r : EReal)
  y : ∀ n, ∃ r : ℝ, A.y n = (r : EReal)
  W0 : ∀ j k, ∃ r : ℝ, A.W0 j k = (r : EReal)
  b0 : ∀ k, ∃ r : ℝ, A.b0 k = (r : EReal)
  W1 : ∀ k j, ∃ r : ℝ, A.W1 k j = (r : EReal)
  b1 : ∀ j, ∃ r : ℝ, A.b1 j = (r : EReal)
  Wm0 : ∀ j d, ∃ r : ℝ, A.Wm0 j d = (r : EReal)
  bm0 : ∀ d, ∃ r : ℝ, A.bm0 d = (r : EReal)
  Wv0 : ∀ j d, ∃ r : ℝ, A.Wv0 j d = (r : EReal)
  bv0 : ∀ d, ∃ r : ℝ, A.bv0 d = (r : EReal)
  Wm1 : ∀ j d, ∃ r : ℝ, A.Wm1 j d = (r : EReal)
  bm1 : ∀ d, ∃ r : ℝ, A.bm1 d = (r : EReal)
  Wv1 : ∀ j d, ∃ r : ℝ, A.Wv1 j d = (r : EReal)
  bv1 : ∀ d, ∃ r : ℝ, A.bv1 d = (r : EReal)
  eps0 : ∀ q d, ∃ r : ℝ, A.eps0 q d = (r : EReal)
  eps1 : ∀ q d, ∃ r : ℝ, A.eps1 q d = (r : EReal)

def hit (id : BitVec 32) (q : Fin 8192) : Prop := id.toInt = (q.val : ℤ)

instance (id : BitVec 32) (q : Fin 8192) : Decidable (hit id q) := by unfold hit; infer_instance

def sample (mean lv eps : Fin 8192 → Fin 16 → EReal) (q : Fin 8192) (d : Fin 16) : EReal :=
  mean q d + Ideal.exp (half * lv q d) * eps q d

def xy (A : Args) (n : Fin 1000000) (j : Fin 65) : EReal :=
  if h : j.val < 64 then A.X n ⟨j.val, h⟩ else A.y n

def hR (A : Args) (n : Fin 1000000) (k : Fin 128) : EReal :=
  max ((∑ j : Fin 65, xy A n j * A.W0 j k) + A.b0 k) zero

def zR (A : Args) (n : Fin 1000000) (j : Fin 64) : EReal :=
  max ((∑ k : Fin 128, hR A n k * A.W1 k j) + A.b1 j) zero

def segSum (z : Fin 1000000 → Fin 64 → EReal) (id : Fin 1000000 → BitVec 32) (q : Fin 8192) (j : Fin 64) : EReal :=
  zero + ∑ n ∈ Finset.univ.filter (fun n => hit (id n) q), z n j

def segCnt (id : Fin 1000000 → BitVec 32) (q : Fin 8192) : EReal :=
  zero + ∑ _n ∈ Finset.univ.filter (fun n => hit (id n) q), one

def segMean (z : Fin 1000000 → Fin 64 → EReal) (id : Fin 1000000 → BitVec 32) (q : Fin 8192) (j : Fin 64) : EReal :=
  Ideal.div (segSum z id q j) (max (segCnt id q) one)

def affR (B : Fin 8192 → Fin 64 → EReal) (W : Fin 64 → Fin 16 → EReal) (b : Fin 16 → EReal)
    (q : Fin 8192) (d : Fin 16) : EReal :=
  (∑ j : Fin 64, B q j * W j d) + b d

def mean0R (A : Args) := affR (segMean (zR A) A.id0) A.Wm0 A.bm0
def lv0R (A : Args) := affR (segMean (zR A) A.id0) A.Wv0 A.bv0
def mean1R (A : Args) := affR (segMean (zR A) A.id1) A.Wm1 A.bm1
def lv1R (A : Args) := affR (segMean (zR A) A.id1) A.Wv1 A.bv1

def Gref (A : Args) (a : Fin 6) (q : Fin 8192) (d : Fin 16) : EReal :=
  match a with
  | ⟨0, _⟩ => mean0R A q d
  | ⟨1, _⟩ => mean1R A q d
  | ⟨2, _⟩ => lv0R A q d
  | ⟨3, _⟩ => lv1R A q d
  | ⟨4, _⟩ => sample (mean0R A) (lv0R A) A.eps0 q d
  | ⟨_ + 5, _⟩ => sample (mean1R A) (lv1R A) A.eps1 q d

def hK (A : Args) (n : Fin 1000000) (k : Fin 128) : EReal :=
  max (((∑ j : Fin 64, A.X n j * A.W0 (Fin.castSucc j) k) + A.y n * A.W0 (Fin.last 64) k) + A.b0 k) zero

def zK (A : Args) (n : Fin 1000000) (j : Fin 64) : EReal :=
  max ((∑ k : Fin 128, hK A n k * A.W1 k j) + A.b1 j) zero

def wmv (Wm Wv : Fin 64 → Fin 16 → EReal) (j : Fin 64) (k : Fin 32) : EReal :=
  if h : k.val < 16 then Wm j ⟨k.val, h⟩ else Wv j ⟨k.val - 16, by omega⟩

def projK (z : Fin 1000000 → Fin 64 → EReal) (Wm Wv : Fin 64 → Fin 16 → EReal) (n : Fin 1000000) (k : Fin 33) : EReal :=
  if h : k.val < 32 then ∑ j : Fin 64, z n j * wmv Wm Wv j ⟨k.val, h⟩ else one

def row (c : Fin 2) (i : Fin 125) (r : Fin 4000) : Fin 1000000 :=
  ⟨(c.val * 125 + i.val) * 4000 + r.val, by omega⟩

def oh (id : BitVec 32) (q : Fin 8192) : EReal := if hit id q then ((1 : ℝ) : EReal) else ((0 : ℝ) : EReal)

def partK (P : Fin 1000000 → Fin 33 → EReal) (id : Fin 1000000 → BitVec 32) (c : Fin 2) (i : Fin 125)
    (k : Fin 33) (q : Fin 8192) : EReal :=
  (∑ r : Fin 4000, P (row c i r) k * oh (id (row c i r)) q)
    + (∑ r : Fin 4000, (P (row c i r) k - P (row c i r) k) * oh (id (row c i r)) q)

def accK (P : Fin 1000000 → Fin 33 → EReal) (id : Fin 1000000 → BitVec 32) (c : Fin 2) :
    ℕ → Fin 33 → Fin 8192 → EReal
  | 0 => fun _ _ => zero
  | i + 1 => fun k q => accK P id c i k q + (if h : i < 125 then partK P id c ⟨i, h⟩ k q else 0)

def totK (P : Fin 1000000 → Fin 33 → EReal) (id : Fin 1000000 → BitVec 32) (k : Fin 33) (q : Fin 8192) : EReal :=
  accK P id 0 125 k q + accK P id 1 125 k q

def btK (P : Fin 1000000 → Fin 33 → EReal) (id : Fin 1000000 → BitVec 32) (k : Fin 32) (q : Fin 8192) : EReal :=
  Ideal.div (totK P id (Fin.castSucc k) q) (max (totK P id (Fin.last 32) q) one)

def meanK (P : Fin 1000000 → Fin 33 → EReal) (id : Fin 1000000 → BitVec 32) (b : Fin 16 → EReal)
    (q : Fin 8192) (d : Fin 16) : EReal :=
  btK P id ⟨d.val, by omega⟩ q + b d

def lvK (P : Fin 1000000 → Fin 33 → EReal) (id : Fin 1000000 → BitVec 32) (b : Fin 16 → EReal)
    (q : Fin 8192) (d : Fin 16) : EReal :=
  btK P id ⟨16 + d.val, by omega⟩ q + b d

def P0 (A : Args) := projK (zK A) A.Wm0 A.Wv0
def P1 (A : Args) := projK (zK A) A.Wm1 A.Wv1

def Gker (A : Args) (a : Fin 6) (q : Fin 8192) (d : Fin 16) : EReal :=
  match a with
  | ⟨0, _⟩ => meanK (P0 A) A.id0 A.bm0 q d
  | ⟨1, _⟩ => meanK (P1 A) A.id1 A.bm1 q d
  | ⟨2, _⟩ => lvK (P0 A) A.id0 A.bv0 q d
  | ⟨3, _⟩ => lvK (P1 A) A.id1 A.bv1 q d
  | ⟨4, _⟩ => sample (meanK (P0 A) A.id0 A.bm0) (lvK (P0 A) A.id0 A.bv0) A.eps0 q d
  | ⟨_ + 5, _⟩ => sample (meanK (P1 A) A.id1 A.bm1) (lvK (P1 A) A.id1 A.bv1) A.eps1 q d

end Cert.Spec

end
-- ==== Proof.LibRows.lean ====
/-
  A matrix product with a zero accumulator read at an index is a sum over the contracted axis; a join of two arrays
  along the columns is, row by row, the join of the rows.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

def ofRows (f : Fin N → Fin K → EReal) : FVec Ideal ⟨2, ![N, K]⟩ .f32 := fun i => f (i 0) (i 1)

def rowOf (A : FVec Ideal ⟨2, ![N, K]⟩ .f32) (i : Fin N) : Fin K → EReal := fun k => A (ix2 i k)

theorem ofRows_apply (f : Fin N → Fin K → EReal) (i : Fin N) (k : Fin K) : ofRows f (ix2 i k) = f i k := rfl

theorem ext_ix2 {A B : FVec Ideal ⟨2, ![N, K]⟩ .f32} (h : ∀ i k, A (ix2 i k) = B (ix2 i k)) : A = B :=
  funext fun j => by rw [eq_ix2 j]; exact h _ _

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

def cat {A B C : ℕ} (hC : A + B = C) (u : Fin A → EReal) (v : Fin B → EReal) : Fin C → EReal :=
  fun j => if h : j.val < A then u ⟨j.val, h⟩ else v ⟨j.val - A, by have := j.isLt; omega⟩

theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

end Idealize.ShloMosaic.Rows

end
-- ==== Proof.KI.Pay0.lean ====
/-
  The accumulation body's arithmetic at an index: two affine layers with max(·, 0), the projection with a count column
  appended, and per slab of 2048 buckets the slab plus the one-hot products.
-/
import proofs.«418107_j79233556677137_3_alg».proof.Proof.Gen.KernelIdeal.Skeleton
import proofs.«418107_j79233556677137_3_alg».proof.Proof.Spec
import proofs.«418107_j79233556677137_3_alg».proof.Proof.LibRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay0

open Cert.KernelIdeal Cert.KernelIdeal.Gen
open Idealize.ShloMosaic Idealize.ShloMosaic.ValueIdx
open Cert.Spec (zero one half hit oh)
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmulA_apply (l : FVec Ideal S4000x64 .f32) (w : FVec Ideal S64x128 .f32) (r : Fin 4000) (k : Fin 128) :
    matmul dot_S4000x64_S64x128_S4000x128_1_0_0_1_n_n none l w (constant (F := Ideal) S4000x128 .f32 0x00000000#32) (ix2 r k)
      = ∑ j : Fin 64, l (ix2 r j) * w (ix2 j k) :=
  Rows.matmul_plain_apply (N := 4000) (K := 64) (M := 128) l w r k

theorem matmulB_apply (l : FVec Ideal S4000x128 .f32) (w : FVec Ideal S128x64 .f32) (r : Fin 4000) (j : Fin 64) :
    matmul dot_S4000x128_S128x64_S4000x64_1_0_0_1_n_n none l w (constant (F := Ideal) S4000x64 .f32 0x00000000#32) (ix2 r j)
      = ∑ k : Fin 128, l (ix2 r k) * w (ix2 k j) :=
  Rows.matmul_plain_apply (N := 4000) (K := 128) (M := 64) l w r j

theorem matmulC_apply (l : FVec Ideal S4000x64 .f32) (w : FVec Ideal S64x32 .f32) (r : Fin 4000) (k : Fin 32) :
    matmul dot_S4000x64_S64x32_S4000x32_1_0_0_1_n_n none l w (constant (F := Ideal) S4000x32 .f32 0x00000000#32) (ix2 r k)
      = ∑ j : Fin 64, l (ix2 r j) * w (ix2 j k) :=
  Rows.matmul_plain_apply (N := 4000) (K := 64) (M := 32) l w r k

theorem lhsT_0 (i : S33x2048.Idx) (q : dot_S4000x33_S4000x2048_S33x2048_0_0_1_1_n_n.contr.Idx) :
    (dot_S4000x33_S4000x2048_S33x2048_0_0_1_1_n_n.lhsIdx i q 0).val = (q ⟨0, by decide⟩).val :=
  dot_S4000x33_S4000x2048_S33x2048_0_0_1_1_n_n.lhsIdx_val_of_single rfl i q
theorem lhsT_1 (i : S33x2048.Idx) (q : dot_S4000x33_S4000x2048_S33x2048_0_0_1_1_n_n.contr.Idx) :
    (dot_S4000x33_S4000x2048_S33x2048_0_0_1_1_n_n.lhsIdx i q 1).val = (i 0).val := by
  unfold DotDims.lhsIdx
  rw [dif_neg (show ¬(1 : Fin S4000x33.rank) ∈ dot_S4000x33_S4000x2048_S33x2048_0_0_1_1_n_n.lhsBatch by decide), dif_pos (show (1 : Fin S4000x33.rank) ∈ dot_S4000x33_S4000x2048_S33x2048_0_0_1_1_n_n.lhsNonContracting by decide)]
  rfl
theorem rhsT_0 (i : S33x2048.Idx) (q : dot_S4000x33_S4000x2048_S33x2048_0_0_1_1_n_n.contr.Idx) :
    (dot_S4000x33_S4000x2048_S33x2048_0_0_1_1_n_n.rhsIdx i q 0).val = (q ⟨0, by decide⟩).val :=
  dot_S4000x33_S4000x2048_S33x2048_0_0_1_1_n_n.rhsIdx_val_of_single rfl i q
theorem rhsT_1 (i : S33x2048.Idx) (q : dot_S4000x33_S4000x2048_S33x2048_0_0_1_1_n_n.contr.Idx) :
    (dot_S4000x33_S4000x2048_S33x2048_0_0_1_1_n_n.rhsIdx i q 1).val = (i 1).val := by
  unfold DotDims.rhsIdx
  rw [dif_neg (show ¬(1 : Fin S4000x2048.rank) ∈ dot_S4000x33_S4000x2048_S33x2048_0_0_1_1_n_n.rhsBatch by decide), dif_pos (show (1 : Fin S4000x2048.rank) ∈ dot_S4000x33_S4000x2048_S33x2048_0_0_1_1_n_n.rhsNonContracting by decide)]
  rfl

theorem matmulT_apply {φ₁ φ₂ : FTy} (l : FVec Ideal S4000x33 φ₁) (r : FVec Ideal S4000x2048 φ₂) (k : Fin 33) (q' : Fin 2048) :
    matmul dot_S4000x33_S4000x2048_S33x2048_0_0_1_1_n_n none l r (constant (F := Ideal) S33x2048 .f32 0x00000000#32) (ix2 k q')
      = ∑ n : Fin 4000, l (ix2 n k) * r (ix2 n q') := by
  show FloatOps.matmul dot_S4000x33_S4000x2048_S33x2048_0_0_1_1_n_n none l r (constant S33x2048 .f32 0x00000000#32) (ix2 k q') = _
  rw [Ideal.matmul_constant_zero_apply, ← Equiv.sum_comp (contrEquiv1 dot_S4000x33_S4000x2048_S33x2048_0_0_1_1_n_n 4000 rfl rfl).symm]
  refine Finset.sum_congr rfl fun n _ => ?_
  have hk := contrEquiv1_symm_val dot_S4000x33_S4000x2048_S33x2048_0_0_1_1_n_n 4000 rfl rfl n
  have el : dot_S4000x33_S4000x2048_S33x2048_0_0_1_1_n_n.lhsIdx (ix2 k q') ((contrEquiv1 dot_S4000x33_S4000x2048_S33x2048_0_0_1_1_n_n 4000 rfl rfl).symm n) = ix2 n k :=
    funext fun a => Fin.ext (by
      match a with
      | ⟨0, _⟩ => exact (lhsT_0 _ _).trans hk
      | ⟨1, _⟩ => exact lhsT_1 _ _)
  have er : dot_S4000x33_S4000x2048_S33x2048_0_0_1_1_n_n.rhsIdx (ix2 k q') ((contrEquiv1 dot_S4000x33_S4000x2048_S33x2048_0_0_1_1_n_n 4000 rfl rfl).symm n) = ix2 n q' :=
    funext fun a => Fin.ext (by
      match a with
      | ⟨0, _⟩ => exact (rhsT_0 _ _).trans hk
      | ⟨1, _⟩ => exact rhsT_1 _ _)
  rw [el, er]

def hRow (x0 : Vec Ideal S4000x64 .f32) (x1 : Vec Ideal S4000x1 .f32) (x4 : Vec Ideal S64x128 .f32) (x5 : Vec Ideal S1x128 .f32)
    (x6 : Vec Ideal S128 .f32) (r : Fin 4000) (k : Fin 128) : EReal :=
  max (((∑ j : Fin 64, x0 (ix2 r j) * x4 (ix2 j k)) + x1 (ix2 r (0 : Fin 1)) * x5 (ix2 (0 : Fin 1) k)) + x6 (ix1 k)) zero

def zRow (x0 : Vec Ideal S4000x64 .f32) (x1 : Vec Ideal S4000x1 .f32) (x4 : Vec Ideal S64x128 .f32) (x5 : Vec Ideal S1x128 .f32)
    (x6 : Vec Ideal S128 .f32) (x7 : Vec Ideal S128x64 .f32) (x8 : Vec Ideal S64 .f32) (r : Fin 4000) (j : Fin 64) : EReal :=
  max ((∑ k : Fin 128, hRow x0 x1 x4 x5 x6 r k * x7 (ix2 k j)) + x8 (ix1 j)) zero

def hid (x0 : FVec Ideal S4000x64 .f32) (x1 : FVec Ideal S4000x1 .f32) (x4 : FVec Ideal S64x128 .f32) (x5 : FVec Ideal S1x128 .f32)
    (x6 : FVec Ideal S128 .f32) : FVec Ideal S4000x128 .f32 :=
  maximumf
    (addf
      (addf (matmul dot_S4000x64_S64x128_S4000x128_1_0_0_1_n_n none x0 (shapeCast S64x128 x4 shapeCasts_S64x128_S64x128) (constant (F := Ideal) S4000x128 .f32 0x00000000#32))
        (mulf (broadcastTo S4000x128 x1 broadcasts_S4000x1_S4000x128)
          (broadcastTo S4000x128 (shapeCast S1x128 x5 shapeCasts_S1x128_S1x128) broadcasts_S1x128_S4000x128)))
      (broadcastTo S4000x128 (shapeCast S1x128 x6 shapeCasts_S128_S1x128) broadcasts_S1x128_S4000x128))
    (broadcast S4000x128 (Scalar.ofBits (F := Ideal) .f32 0x00000000#32))

theorem hid_apply (x0 : FVec Ideal S4000x64 .f32) (x1 : FVec Ideal S4000x1 .f32) (x4 : FVec Ideal S64x128 .f32) (x5 : FVec Ideal S1x128 .f32)
    (x6 : FVec Ideal S128 .f32) (r : Fin 4000) (k : Fin 128) :
    hid x0 x1 x4 x5 x6 (ix2 r k) = hRow x0 x1 x4 x5 x6 r k := by
  unfold hid hRow
  rw [maximumf_apply, addf_apply, addf_apply, mulf_apply, broadcast_apply, matmulA_apply, shapeCast_self, shapeCast_self,
    broadcastTo_a1_ab_apply, broadcastTo_1b_ab_apply, broadcastTo_1b_ab_apply, shapeCast_a_1a_apply]
  rfl

def feat (h : FVec Ideal S4000x128 .f32) (x7 : FVec Ideal S128x64 .f32) (x8 : FVec Ideal S64 .f32) : FVec Ideal S4000x64 .f32 :=
  maximumf
    (addf (matmul dot_S4000x128_S128x64_S4000x64_1_0_0_1_n_n none h x7 (constant (F := Ideal) S4000x64 .f32 0x00000000#32))
      (broadcastTo S4000x64 (shapeCast S1x64 x8 shapeCasts_S64_S1x64) broadcasts_S1x64_S4000x64))
    (broadcast S4000x64 (Scalar.ofBits (F := Ideal) .f32 0x00000000#32))

theorem feat_apply (h : FVec Ideal S4000x128 .f32) (x7 : FVec Ideal S128x64 .f32) (x8 : FVec Ideal S64 .f32) (r : Fin 4000) (j : Fin 64) :
    feat h x7 x8 (ix2 r j) = max ((∑ k : Fin 128, h (ix2 r k) * x7 (ix2 k j)) + x8 (ix1 j)) zero := by
  unfold feat
  rw [maximumf_apply, addf_apply, broadcast_apply, matmulB_apply, broadcastTo_1b_ab_apply, shapeCast_a_1a_apply]
  rfl

theorem pay7_apply (x0 : Vec Ideal S4000x64 .f32) (x1 : Vec Ideal S4000x1 .f32) (x4 : Vec Ideal S64x128 .f32) (x5 : Vec Ideal S1x128 .f32)
    (x6 : Vec Ideal S128 .f32) (x7 : Vec Ideal S128x64 .f32) (x8 : Vec Ideal S64 .f32) (r : Fin 4000) (j : Fin 64) :
    k0_pay7 (F := Ideal) x0 x1 x4 x5 x6 x7 x8 (ix2 r j) = zRow x0 x1 x4 x5 x6 x7 x8 r j := by
  have e : k0_pay7 (F := Ideal) x0 x1 x4 x5 x6 x7 x8 = feat (hid x0 x1 x4 x5 x6) x7 x8 := rfl
  rw [e, feat_apply]
  unfold zRow
  exact congrArg (fun s => max (s + x8 (ix1 j)) zero) (Finset.sum_congr rfl fun k _ => by rw [hid_apply])

theorem pay9_apply (x0 : Vec Ideal S4000x64 .f32) (x1 : Vec Ideal S4000x1 .f32) (x4 : Vec Ideal S64x128 .f32) (x5 : Vec Ideal S1x128 .f32)
    (x6 : Vec Ideal S128 .f32) (x7 : Vec Ideal S128x64 .f32) (x8 : Vec Ideal S64 .f32) (x9 : Vec Ideal S64x32 .f32) (r : Fin 4000) (k : Fin 32) :
    k0_pay9 (F := Ideal) x0 x1 x4 x5 x6 x7 x8 x9 (ix2 r k) = ∑ j : Fin 64, zRow x0 x1 x4 x5 x6 x7 x8 r j * x9 (ix2 j k) := by
  have e : k0_pay9 (F := Ideal) x0 x1 x4 x5 x6 x7 x8 x9
      = matmul dot_S4000x64_S64x32_S4000x32_1_0_0_1_n_n none (k0_pay7 (F := Ideal) x0 x1 x4 x5 x6 x7 x8) (shapeCast S64x32 x9 shapeCasts_S64x32_S64x32)
          (constant (F := Ideal) S4000x32 .f32 0x00000000#32) := rfl
  rw [e, matmulC_apply, shapeCast_self]
  exact Finset.sum_congr rfl fun j _ => by rw [pay7_apply]

theorem pay8_apply (r : Fin 4000) : k0_pay8 (F := Ideal) (ix2 r (0 : Fin 1)) = one := rfl

theorem pay5_apply (k : Fin 33) (q : Fin 8192) : k0_pay5 (F := Ideal) (ix2 k q) = zero := by
  unfold k0_pay5
  rw [shapeCast_self]
  rfl

theorem pay6_apply (k : Fin 33) (q : Fin 8192) : k0_pay6 (F := Ideal) (ix2 k q) = zero := by
  unfold k0_pay6
  rw [shapeCast_self]
  rfl

theorem pay3_apply (v54 : Vec Ideal S33x8192 .f32) (k : Fin 33) (q : Fin 8192) :
    k0_pay3 (F := Ideal) v54 (ix3 (0 : Fin 1) k q) = v54 (ix2 k q) := by
  unfold k0_pay3
  exact shapeCast_ab_1ab_apply v54 _ 0 k q

theorem pay4_apply (v58 : Vec Ideal S33x8192 .f32) (k : Fin 33) (q : Fin 8192) :
    k0_pay4 (F := Ideal) v58 (ix3 (0 : Fin 1) k q) = v58 (ix2 k q) := by
  unfold k0_pay4
  exact shapeCast_ab_1ab_apply v58 _ 0 k q

def pcat (v31 : FVec Ideal S4000x32 .f32) (v28 : FVec Ideal S4000x1 .f32) (r : Fin 4000) (k : Fin 33) : EReal :=
  if h : k.val < 32 then v31 (ix2 r (⟨k.val, h⟩ : Fin 32)) else v28 (ix2 r (0 : Fin 1))

def slabBucket (κ : ℕ) (hκ : κ < 4) (q' : Fin 2048) : Fin 8192 := ⟨κ * 2048 + q'.val, by omega⟩

theorem pcat_apply (v31 : FVec Ideal S4000x32 .f32) (v28 : FVec Ideal S4000x1 .f32) (r : Fin 4000) (k : Fin 33) :
    concatenate S4000x33 1 [⟨S4000x32, v31⟩, ⟨S4000x1, v28⟩] concatenates_S4000x32_S4000x1_S4000x33_d1 (ix2 r k)
      = pcat v31 v28 r k := by
  rw [Rows.cat_eq (N := 4000) (A := 32) (B := 1) (C := 33) rfl v31 v28 concatenates_S4000x32_S4000x1_S4000x33_d1, Rows.ofRows_apply]
  unfold Rows.cat Rows.rowOf pcat
  by_cases h : k.val < 32
  · rw [dif_pos h, dif_pos h]
  · rw [dif_neg h, dif_neg h]
    exact congrArg (fun c : Fin 1 => v28 (ix2 r c)) (Fin.ext (by have := k.isLt; show k.val - 32 = 0; omega))

theorem toInt_ofNat_small (n : ℕ) (hn : n < 8192) : (BitVec.ofNat 32 n).toInt = (n : ℤ) := by
  have h1 : (BitVec.ofNat 32 n).toNat = n := by
    rw [BitVec.toNat_ofNat]; omega
  rw [BitVec.toInt_eq_toNat_of_lt (by rw [h1]; omega), h1]

theorem onehot_entry (id : BitVec 32) (q : Fin 8192) :
    FloatOps.sitofp (F := Ideal) .f32 ((IntOp.cmpi .eq id (BitVec.ofNat 32 q.val)).setWidth 32) = oh id q := by
  show (((((IntOp.cmpi .eq id (BitVec.ofNat 32 q.val)).setWidth 32).toInt : ℤ) : ℝ) : EReal) = _
  unfold oh
  have hw := toInt_ofNat_small q.val q.isLt
  by_cases h : id = BitVec.ofNat 32 q.val
  · have hc : IntOp.cmpi .eq id (BitVec.ofNat 32 q.val) = 1#1 := by
      show BitVec.ofBool (id == BitVec.ofNat 32 q.val) = 1#1
      rw [h, beq_self_eq_true]; rfl
    rw [hc, if_pos (show hit id q from h ▸ hw), show (BitVec.setWidth 32 (1#1)).toInt = 1 from by decide, Int.cast_one]
  · have hc : IntOp.cmpi .eq id (BitVec.ofNat 32 q.val) = 0#1 := by
      show BitVec.ofBool (id == BitVec.ofNat 32 q.val) = 0#1
      rw [beq_eq_false_iff_ne.mpr h]; rfl
    have hne : ¬ hit id q := fun e => h (BitVec.toInt_inj.mp (Eq.trans e hw.symm))
    rw [hc, if_neg hne, show (BitVec.setWidth 32 (0#1)).toInt = 0 from by decide, Int.cast_zero]

def slabWord (κ : ℕ) : BitVec 32 := Scalar.muli (Scalar.addi 0#32 (Scalar.muli (Scf.iv 0#32 1#32 κ) 1#32)) 2048#32

theorem slab_word (κ : ℕ) (hκ : κ < 4) (q' : Fin 2048) :
    IntOp.addi (slabWord κ) (BitVec.ofNat 32 q'.val) = BitVec.ofNat 32 (κ * 2048 + q'.val) := by
  have hq := q'.isLt
  unfold slabWord
  apply BitVec.eq_of_toNat_eq
  interval_cases κ <;>
  · simp only [IntOp.addi, Scalar.muli, Scalar.addi, IntOp.muli, Scf.iv, BitVec.toNat_add, BitVec.toNat_mul, BitVec.toNat_ofNat]
    omega

def ohm (ids : IVec S4000x1 32) (w : BitVec 32) : FVec Ideal S4000x2048 .bf16 :=
  truncf .bf16
    (sitofp .f32
      (extui 32
        (cmpi .eq (broadcastTo S4000x2048 (shapeCast S4000x1 ids shapeCasts_S4000x1_S4000x1) broadcasts_S4000x1_S4000x2048)
          (broadcastTo S4000x2048 (addi (broadcast S1x2048 w) (iota .tc S1x2048 32 [1] iota_S1x2048_d1_w32)) broadcasts_S1x2048_S4000x2048))
        natLt_1_32) : FVec Ideal S4000x2048 .f32)
    bitsLt_bf16_f32

theorem ohm_apply (ids : IVec S4000x1 32) (w : BitVec 32) (r : Fin 4000) (q' : Fin 2048) :
    ohm ids w (ix2 r q')
      = FloatOps.sitofp (F := Ideal) .f32 ((IntOp.cmpi .eq (ids (ix2 r (0 : Fin 1))) (IntOp.addi w (BitVec.ofNat 32 q'.val))).setWidth 32) := by
  unfold ohm
  rw [truncf_apply, sitofp_apply, extui_apply]
  show FloatOps.sitofp (F := Ideal) .f32 ((IntOp.cmpi .eq
      (broadcastTo S4000x2048 (shapeCast S4000x1 ids shapeCasts_S4000x1_S4000x1) broadcasts_S4000x1_S4000x2048 (ix2 r q'))
      (broadcastTo S4000x2048 (addi (broadcast S1x2048 w) (iota .tc S1x2048 32 [1] iota_S1x2048_d1_w32)) broadcasts_S1x2048_S4000x2048 (ix2 r q'))).setWidth 32) = _
  rw [broadcastTo_a1_ab_apply, broadcastTo_1b_ab_apply, shapeCast_self]
  show FloatOps.sitofp (F := Ideal) .f32 ((IntOp.cmpi .eq (ids (ix2 r (0 : Fin 1)))
      (IntOp.addi w (iota .tc S1x2048 32 [1] iota_S1x2048_d1_w32 (ix2 (0 : Fin 1) q')))).setWidth 32) = _
  rw [iota_single_apply]

theorem ohm_slab (ids : IVec S4000x1 32) (κ : ℕ) (hκ : κ < 4) (r : Fin 4000) (q' : Fin 2048) :
    ohm ids (slabWord κ) (ix2 r q') = oh (ids (ix2 r (0 : Fin 1))) (slabBucket κ hκ q') := by
  rw [ohm_apply, slab_word κ hκ q']
  exact onehot_entry _ (slabBucket κ hκ q')

def trip (C : FVec Ideal S4000x33 .f32) (O : FVec Ideal S4000x2048 .bf16) (v71 : FVec Ideal S33x2048 .f32) : FVec Ideal S33x2048 .f32 :=
  shapeCast S33x2048
    (addf v71
      (addf (matmul dot_S4000x33_S4000x2048_S33x2048_0_0_1_1_n_n none (truncf .bf16 C bitsLt_bf16_f32 : FVec Ideal S4000x33 .bf16) O (constant (F := Ideal) S33x2048 .f32 0x00000000#32))
        (matmul dot_S4000x33_S4000x2048_S33x2048_0_0_1_1_n_n none (truncf .bf16 (subf C C) bitsLt_bf16_f32 : FVec Ideal S4000x33 .bf16) O (constant (F := Ideal) S33x2048 .f32 0x00000000#32))))
    shapeCasts_S33x2048_S33x2048

theorem trip_apply (C : FVec Ideal S4000x33 .f32) (O : FVec Ideal S4000x2048 .bf16) (v71 : FVec Ideal S33x2048 .f32) (k : Fin 33) (q' : Fin 2048) :
    trip C O v71 (ix2 k q')
      = v71 (ix2 k q') + ((∑ r : Fin 4000, C (ix2 r k) * O (ix2 r q')) + (∑ r : Fin 4000, (C (ix2 r k) - C (ix2 r k)) * O (ix2 r q'))) := by
  unfold trip
  rw [shapeCast_self, addf_apply, addf_apply, matmulT_apply, matmulT_apply]
  rfl

theorem pay1_apply (v28 : FVec Ideal S4000x1 .f32) (v31 : FVec Ideal S4000x32 .f32) (v45 : Vec Ideal S4000x1 .i32)
    (κ : Fin k0_t1_loop.trips) (hκ : κ.val < 4) (v71 : Vec Ideal S33x2048 .f32) (k : Fin 33) (q' : Fin 2048) :
    k0_pay1 (F := Ideal) v28 v31 v45 κ v71 (ix2 k q')
      = v71 (ix2 k q')
        + ((∑ r : Fin 4000, pcat v31 v28 r k * oh (v45 (ix2 r (0 : Fin 1))) (slabBucket κ.val hκ q'))
          + (∑ r : Fin 4000, (pcat v31 v28 r k - pcat v31 v28 r k) * oh (v45 (ix2 r (0 : Fin 1))) (slabBucket κ.val hκ q'))) := by
  have e : k0_pay1 (F := Ideal) v28 v31 v45 κ v71
      = trip (concatenate S4000x33 1 [⟨S4000x32, v31⟩, ⟨S4000x1, v28⟩] concatenates_S4000x32_S4000x1_S4000x33_d1)
          (ohm v45 (slabWord κ.val)) v71 := rfl
  rw [e, trip_apply]
  refine congrArg (v71 (ix2 k q') + ·) ?_
  congr 1 <;> exact Finset.sum_congr rfl fun r _ => by rw [pcat_apply, ohm_slab v45 κ.val hκ]

def proj2 (v27 : FVec Ideal S4000x64 .f32) (v32 : Vec Ideal S64x32 .f32) : FVec Ideal S4000x32 .f32 :=
  fun i => ∑ j : Fin 64, v27 (ix2 (i 0) j) * v32 (ix2 j (i 1))

theorem proj2_eq (v27 : FVec Ideal S4000x64 .f32) (v32 : Vec Ideal S64x32 .f32) :
    matmul dot_S4000x64_S64x32_S4000x32_1_0_0_1_n_n none v27 (shapeCast S64x32 v32 shapeCasts_S64x32_S64x32 : FVec Ideal S64x32 .f32) (constant (F := Ideal) S4000x32 .f32 0x00000000#32)
      = proj2 v27 v32 :=
  Rows.ext_ix2 (N := 4000) (K := 32) fun r k => by
    rw [matmulC_apply, shapeCast_self]
    rfl

theorem pay2_apply (v27 : FVec Ideal S4000x64 .f32) (v28 : FVec Ideal S4000x1 .f32) (v32 : Vec Ideal S64x32 .f32) (v48 : Vec Ideal S4000x1 .i32)
    (κ : Fin k0_t2_loop.trips) (hκ : κ.val < 4) (v71 : Vec Ideal S33x2048 .f32) (k : Fin 33) (q' : Fin 2048) :
    k0_pay2 (F := Ideal) v27 v28 v32 v48 κ v71 (ix2 k q')
      = v71 (ix2 k q')
        + ((∑ r : Fin 4000, pcat (proj2 v27 v32) v28 r k * oh (v48 (ix2 r (0 : Fin 1))) (slabBucket κ.val hκ q'))
          + (∑ r : Fin 4000, (pcat (proj2 v27 v32) v28 r k - pcat (proj2 v27 v32) v28 r k) * oh (v48 (ix2 r (0 : Fin 1))) (slabBucket κ.val hκ q'))) := by
  have e : k0_pay2 (F := Ideal) v27 v28 v32 v48 κ v71
      = trip (concatenate S4000x33 1
            [⟨S4000x32, matmul dot_S4000x64_S64x32_S4000x32_1_0_0_1_n_n none v27 (shapeCast S64x32 v32 shapeCasts_S64x32_S64x32 : FVec Ideal S64x32 .f32) (constant (F := Ideal) S4000x32 .f32 0x00000000#32)⟩,
              ⟨S4000x1, v28⟩] concatenates_S4000x32_S4000x1_S4000x33_d1)
          (ohm v48 (slabWord κ.val)) v71 := rfl
  rw [e, proj2_eq, trip_apply]
  refine congrArg (v71 (ix2 k q') + ·) ?_
  congr 1 <;> exact Finset.sum_congr rfl fun r _ => by rw [pcat_apply, ohm_slab v48 κ.val hκ]

end Cert.KernelIdeal.Pay0

end
-- ==== Proof.KI.LoopVal.lean ====
/-
  One pass of an accumulation loop read back as one function: four disjoint slabs of 2048 buckets tile the accumulator,
  and trip κ adds the point's one-hot products for slab κ.
-/
import proofs.«418107_j79233556677137_3_alg».proof.Proof.Gen.KernelIdeal.Loops
import proofs.«418107_j79233556677137_3_alg».proof.Proof.KI.Pay0
import Idealize.ShloMosaic.Lib.Pipeline.FrameBody
import Idealize.ShloMosaic.Lib.Pipeline.Value
import Idealize.ShloMosaic.Lib.WholeRead
import Idealize.ShloMosaic.Lib.WritesUnit

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Cert.Spec (zero one half hit oh)
open Cert.KernelIdeal.Pay0 (pcat proj2 slabBucket)
open scoped BigOperators

def stepAccAt (v28 : FVec Ideal S4000x1 .f32) (v31 : FVec Ideal S4000x32 .f32) (ids : Vec Ideal S4000x1 .i32)
    (xs : Vec Ideal S33x8192 .f32) (k : Fin 33) (q : Fin 8192) : EReal :=
  xs (ix2 k q)
    + ((∑ r : Fin 4000, pcat v31 v28 r k * oh (ids (ix2 r (0 : Fin 1))) q)
      + (∑ r : Fin 4000, (pcat v31 v28 r k - pcat v31 v28 r k) * oh (ids (ix2 r (0 : Fin 1))) q))

def stepAcc (v28 : FVec Ideal S4000x1 .f32) (v31 : FVec Ideal S4000x32 .f32) (ids : Vec Ideal S4000x1 .i32)
    (xs : Vec Ideal S33x8192 .f32) : Vec Ideal S33x8192 .f32 :=
  fun y => stepAccAt v28 v31 ids xs (y 0) (y 1)

theorem stepAcc_ix2 (v28 : FVec Ideal S4000x1 .f32) (v31 : FVec Ideal S4000x32 .f32) (ids : Vec Ideal S4000x1 .i32)
    (xs : Vec Ideal S33x8192 .f32) (k : Fin 33) (q : Fin 8192) :
    stepAcc v28 v31 ids xs (ix2 k q) = stepAccAt v28 v31 ids xs k q := rfl

section Slabs

variable {sigA : RefSig} {κA : Kind} {spA : Space}

theorem slabs_read_upto {T : ℕ} (hT : T ≤ 4)
    (off : Fin T → Fin 2 → ℕ) (hoff : ∀ κ : Fin T, off κ = ![0, 2048 * κ.val])
    (inb : ∀ (κ : Fin T) (a : Fin 2), off κ a + S33x2048.size a ≤ S33x8192.size a)
    (pay : Fin T → Vec Ideal S33x2048 .f32 → FVec Ideal S33x2048 .f32)
    (D : Fin 33 → Fin 8192 → EReal)
    (hpay : ∀ (κ : Fin T) (hκ : κ.val < 4) (v71 : Vec Ideal S33x2048 .f32) (k : Fin 33) (q' : Fin 2048),
      pay κ v71 (ix2 k q') = (v71 (ix2 k q') : EReal) + D k (slabBucket κ.val hκ q'))
    (A : View sigA κA spA S33x8192 .f32) (G : A.ty.Contents (Elt Ideal))
    (pb : ℕ → List (View.Piece (Elt Ideal) S33x8192 .f32)) (pb0 : pb 0 = [])
    (pbS : ∀ κ : Fin T, pb (κ.val + 1)
      = [(⟨Rect.unit (s := S33x8192) (off κ) S33x2048.size (inb κ),
            pay κ (A.readAt (Elt Ideal) (Rect.unit (s := S33x8192) (off κ) S33x2048.size (inb κ)).toLoadRect
              (A.writes (Elt Ideal) G (pb κ.val)))⟩ : View.Piece (Elt Ideal) S33x8192 .f32)] ++ pb κ.val) :
    ∀ n, n ≤ T → ∀ {sig' : RefSig} {κ' : Kind} {sp' : Space} (v : View sig' κ' sp' S33x8192 .f32)
      (f : v.ty.Contents (Elt Ideal)) (L' : List (View.Piece (Elt Ideal) S33x8192 .f32)) (k : Fin 33) (q : Fin 8192),
      v.read (Elt Ideal) (v.writes (Elt Ideal) f (pb n ++ L')) (ix2 k q)
        = if q.val < 2048 * n then (A.read (Elt Ideal) G (ix2 k q) : EReal) + D k q
          else v.read (Elt Ideal) (v.writes (Elt Ideal) f L') (ix2 k q) := by
  intro n
  induction n with
  | zero =>
    intro _ _ _ _ v f L' k q
    rw [pb0, List.nil_append, if_neg (by omega)]
  | succ n ih =>
    intro hn _ _ _ v f L' k q
    have hn' : n < T := hn
    have ihn := @ih (Nat.le_of_lt hn')
    rw [show pb (n + 1) = _ from pbS ⟨n, hn'⟩, List.append_assoc, List.singleton_append]
    by_cases h1 : q.val < 2048 * n
    · rw [View.read_writes_cons_unit_of_not_mem v f (inb ⟨n, hn'⟩) _ _ (ix2 k q) (hoff ⟨n, hn'⟩) (1 : Fin 2)
        (Or.inl (show q.val < 2048 * n from h1))]
      rw [ihn v f L' k q, if_pos h1, if_pos (by omega)]
    · by_cases h2 : q.val < 2048 * (n + 1)
      · rw [if_pos h2]
        have hq' : q.val - 2048 * n < 2048 := by omega
        have hn4 : n < 4 := by omega
        rw [View.read_writes_cons_unit_of_mem v f (inb ⟨n, hn'⟩) _ _ (ix2 k q)
          (ix2 k (⟨q.val - 2048 * n, hq'⟩ : Fin 2048)) (hoff ⟨n, hn'⟩)
          (Fin.forall_fin_two.mpr ⟨(show k.val = 0 + k.val by omega),
            (show q.val = 2048 * n + (q.val - 2048 * n) by omega)⟩)]
        refine (hpay ⟨n, hn'⟩ hn4 _ k ⟨q.val - 2048 * n, hq'⟩).trans ?_
        have e1 : slabBucket n hn4 ⟨q.val - 2048 * n, hq'⟩ = q :=
          Fin.ext (show n * 2048 + (q.val - 2048 * n) = q.val by omega)
        have e2 : (Rect.unit (s := S33x8192) (off ⟨n, hn'⟩) S33x2048.size (inb ⟨n, hn'⟩)).toLoadRect.idx
            (ix2 k (⟨q.val - 2048 * n, hq'⟩ : Fin 2048)) = ix2 k q := by
          have hx : ∀ a : Fin 2, ((ix2 k q : S33x8192.Idx) a).val
              = off ⟨n, hn'⟩ a + ((ix2 k (⟨q.val - 2048 * n, hq'⟩ : Fin 2048) : S33x2048.Idx) a).val := by
            rw [hoff ⟨n, hn'⟩]
            exact Fin.forall_fin_two.mpr ⟨(show k.val = 0 + k.val by omega),
              (show q.val = 2048 * n + (q.val - 2048 * n) by omega)⟩
          exact funext fun a => Fin.ext (by
            show off ⟨n, hn'⟩ a + 1 * ((ix2 k (⟨q.val - 2048 * n, hq'⟩ : Fin 2048) : S33x2048.Idx) a).val
              = ((ix2 k q : S33x8192.Idx) a).val
            rw [hx a, Nat.one_mul])
        have e3 := ihn A G [] k q
        rw [List.append_nil, if_neg h1] at e3
        rw [e1, View.readAt_apply, e2, e3]
        rfl
      · rw [if_neg h2]
        rw [View.read_writes_cons_unit_of_not_mem v f (inb ⟨n, hn'⟩) _ _ (ix2 k q) (hoff ⟨n, hn'⟩) (1 : Fin 2)
          (Or.inr (show 2048 * n + 2048 ≤ q.val by omega))]
        rw [ihn v f L' k q, if_neg h1]

theorem slabs_read {T : ℕ} (hT : T = 4)
    (off : Fin T → Fin 2 → ℕ) (hoff : ∀ κ : Fin T, off κ = ![0, 2048 * κ.val])
    (inb : ∀ (κ : Fin T) (a : Fin 2), off κ a + S33x2048.size a ≤ S33x8192.size a)
    (pay : Fin T → Vec Ideal S33x2048 .f32 → FVec Ideal S33x2048 .f32)
    (D : Fin 33 → Fin 8192 → EReal)
    (hpay : ∀ (κ : Fin T) (hκ : κ.val < 4) (v71 : Vec Ideal S33x2048 .f32) (k : Fin 33) (q' : Fin 2048),
      pay κ v71 (ix2 k q') = (v71 (ix2 k q') : EReal) + D k (slabBucket κ.val hκ q'))
    (A : View sigA κA spA S33x8192 .f32) (G : A.ty.Contents (Elt Ideal))
    (pb : ℕ → List (View.Piece (Elt Ideal) S33x8192 .f32)) (pb0 : pb 0 = [])
    (pbS : ∀ κ : Fin T, pb (κ.val + 1)
      = [(⟨Rect.unit (s := S33x8192) (off κ) S33x2048.size (inb κ),
            pay κ (A.readAt (Elt Ideal) (Rect.unit (s := S33x8192) (off κ) S33x2048.size (inb κ)).toLoadRect
              (A.writes (Elt Ideal) G (pb κ.val)))⟩ : View.Piece (Elt Ideal) S33x8192 .f32)] ++ pb κ.val)
    {sig' : RefSig} {κ' : Kind} {sp' : Space} (v : View sig' κ' sp' S33x8192 .f32)
    (f : v.ty.Contents (Elt Ideal)) (L' : List (View.Piece (Elt Ideal) S33x8192 .f32)) :
    v.read (Elt Ideal) (v.writes (Elt Ideal) f (pb T ++ L'))
      = fun y => (A.read (Elt Ideal) G (ix2 (y 0) (y 1)) : EReal) + D (y 0) (y 1) := by
  funext y
  obtain ⟨k, q, rfl⟩ : ∃ (k : Fin 33) (q : Fin 8192), y = ix2 k q := ⟨y 0, y 1, eq_ix2 y⟩
  rw [slabs_read_upto (Nat.le_of_eq hT) off hoff inb pay D hpay A G pb pb0 pbS T (Nat.le_refl T) v f L' k q,
    if_pos (by have := q.isLt; omega)]

end Slabs

variable (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole)

theorem tripL1_eq
    (v28 : FVec Ideal S4000x1 .f32) (v31 : FVec Ideal S4000x32 .f32) (v45 : Vec Ideal S4000x1 .i32)
    (κ : Fin k0_t1_loop.trips) (f : BufTy.Contents (Elt Ideal) arg15.view.ty) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v28 v31 v45 κ f
      = [(⟨Rect.unit (s := S33x8192) (k0_off1 κ) S33x2048.size (k0_off1_inb κ),
            k0_pay1 (F := Ideal) v28 v31 v45 κ (arg15.view.readAt (Elt Ideal)
              (Rect.unit (s := S33x8192) (k0_off1 κ) S33x2048.size (k0_off1_inb κ)).toLoadRect f)⟩ :
          View.Piece (Elt Ideal) S33x8192 .f32)] := by
  unfold tripL_k0_t1 trip_k0_t1
  rfl

theorem tripL2_eq
    (v27 : FVec Ideal S4000x64 .f32) (v28 : FVec Ideal S4000x1 .f32) (v32 : Vec Ideal S64x32 .f32) (v48 : Vec Ideal S4000x1 .i32)
    (κ : Fin k0_t2_loop.trips) (f : BufTy.Contents (Elt Ideal) arg16.view.ty) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v28 v32 v48 κ f
      = [(⟨Rect.unit (s := S33x8192) (k0_off2 κ) S33x2048.size (k0_off2_inb κ),
            k0_pay2 (F := Ideal) v27 v28 v32 v48 κ (arg16.view.readAt (Elt Ideal)
              (Rect.unit (s := S33x8192) (k0_off2 κ) S33x2048.size (k0_off2_inb κ)).toLoadRect f)⟩ :
          View.Piece (Elt Ideal) S33x8192 .f32)] := by
  unfold tripL_k0_t2 trip_k0_t2
  rfl

theorem loop1_read
    (v28 : FVec Ideal S4000x1 .f32) (v31 : FVec Ideal S4000x32 .f32) (v45 : Vec Ideal S4000x1 .i32)
    (G : BufTy.Contents (Elt Ideal) arg15.view.ty) (L' : List (View.Piece (Elt Ideal) S33x8192 .f32))
    (v : View sig .tc .vmem S33x8192 .f32) (f : v.ty.Contents (Elt Ideal)) :
    v.read (Elt Ideal) (v.writes (Elt Ideal) f
        (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v28 v31 v45 G k0_t1_loop.trips ++ L'))
      = stepAcc v28 v31 v45 (arg15.view.read (Elt Ideal) G) := by
  have hT : k0_t1_loop.trips = 4 := by decide
  rw [slabs_read hT k0_off1 k0_off1_eq k0_off1_inb (k0_pay1 (F := Ideal) v28 v31 v45)
    (fun k q => (∑ r : Fin 4000, pcat v31 v28 r k * oh (v45 (ix2 r (0 : Fin 1))) q)
      + (∑ r : Fin 4000, (pcat v31 v28 r k - pcat v31 v28 r k) * oh (v45 (ix2 r (0 : Fin 1))) q))
    (fun κ hκ v71 k q' => Pay0.pay1_apply v28 v31 v45 κ hκ v71 k q')
    arg15.view G
    (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v28 v31 v45 G)
    rfl (fun κ => by rw [pb_k0_t1_succ, tripL1_eq]) v f L']
  rfl

theorem loop2_read
    (v27 : FVec Ideal S4000x64 .f32) (v28 : FVec Ideal S4000x1 .f32) (v32 : Vec Ideal S64x32 .f32) (v48 : Vec Ideal S4000x1 .i32)
    (G : BufTy.Contents (Elt Ideal) arg16.view.ty) (L' : List (View.Piece (Elt Ideal) S33x8192 .f32))
    (v : View sig .tc .vmem S33x8192 .f32) (f : v.ty.Contents (Elt Ideal)) :
    v.read (Elt Ideal) (v.writes (Elt Ideal) f
        (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v28 v32 v48 G k0_t2_loop.trips ++ L'))
      = stepAcc v28 (proj2 v27 v32) v48 (arg16.view.read (Elt Ideal) G) := by
  have hT : k0_t2_loop.trips = 4 := by decide
  rw [slabs_read hT k0_off2 k0_off2_eq k0_off2_inb (k0_pay2 (F := Ideal) v27 v28 v32 v48)
    (fun k q => (∑ r : Fin 4000, pcat (proj2 v27 v32) v28 r k * oh (v48 (ix2 r (0 : Fin 1))) q)
      + (∑ r : Fin 4000, (pcat (proj2 v27 v32) v28 r k - pcat (proj2 v27 v32) v28 r k) * oh (v48 (ix2 r (0 : Fin 1))) q))
    (fun κ hκ v71 k q' => Pay0.pay2_apply v27 v28 v32 v48 κ hκ v71 k q')
    arg16.view G
    (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v27 v28 v32 v48 G)
    rfl (fun κ => by rw [pb_k0_t2_succ, tripL2_eq]) v f L']
  rfl

end Cert.KernelIdeal.Fr

end
-- ==== Proof.KI.CaseVal.lean ====
/-
  What each case of the accumulation body leaves: the contents found at entry (zero at a first point) plus the point's
  one-hot products; at a last point the output block is the accumulator copied whole.
-/
import proofs.«418107_j79233556677137_3_alg».proof.Proof.KI.Frame0
import proofs.«418107_j79233556677137_3_alg».proof.Proof.KI.LoopVal
import Idealize.ShloMosaic.Lib.WholeRead

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (zero one half hit oh)
open scoped BigOperators

variable (c : Dev nD) (i : grid0.Coords) (arg2 : Memref sig .tc .vmem S4000x64 .f32) (harg2 : arg2.IsWhole) (arg3 : Memref sig .tc .vmem S4000x1 .f32) (harg3 : arg3.IsWhole) (arg4 : Memref sig .tc .vmem S4000x1 .i32) (harg4 : arg4.IsWhole) (arg5 : Memref sig .tc .vmem S4000x1 .i32) (harg5 : arg5.IsWhole) (arg6 : Memref sig .tc .vmem S64x128 .f32) (harg6 : arg6.IsWhole) (arg7 : Memref sig .tc .vmem S1x128 .f32) (harg7 : arg7.IsWhole) (arg8 : Memref sig .tc .vmem S128 .f32) (harg8 : arg8.IsWhole) (arg9 : Memref sig .tc .vmem S128x64 .f32) (harg9 : arg9.IsWhole) (arg10 : Memref sig .tc .vmem S64 .f32) (harg10 : arg10.IsWhole) (arg11 : Memref sig .tc .vmem S64x32 .f32) (harg11 : arg11.IsWhole) (arg12 : Memref sig .tc .vmem S64x32 .f32) (harg12 : arg12.IsWhole) (arg13 : Memref sig .tc .vmem S1x33x8192 .f32) (harg13 : arg13.IsWhole) (arg14 : Memref sig .tc .vmem S1x33x8192 .f32) (harg14 : arg14.IsWhole) (arg15 : Memref sig .tc .vmem S33x8192 .f32) (harg15 : arg15.IsWhole) (arg16 : Memref sig .tc .vmem S33x8192 .f32) (harg16 : arg16.IsWhole)
  (x0 : Vec Ideal S4000x64 .f32) (x1 : Vec Ideal S4000x1 .f32) (x2 : Vec Ideal S4000x1 .i32) (x3 : Vec Ideal S4000x1 .i32) (x4 : Vec Ideal S64x128 .f32) (x5 : Vec Ideal S1x128 .f32) (x6 : Vec Ideal S128 .f32) (x7 : Vec Ideal S128x64 .f32) (x8 : Vec Ideal S64 .f32) (x9 : Vec Ideal S64x32 .f32) (x10 : Vec Ideal S64x32 .f32)

theorem whole_ld {κ : Kind} {sp : Space} {s : Shape} {e : EltTy} {m : Memref sig κ sp s e} (h : m.IsWhole) (X : s.Idx → Elt Ideal e)
    (off : Fin s.rank → ℕ) (hoff : ∀ a, off a = 0) (inb : ∀ a, off a + s.size a ≤ s.size a) :
    View.readAt (Elt Ideal) m.view (Rect.unit (s := s) off s.size inb).toLoadRect (h.unread X) = X :=
  funext fun x => (h.readAt_unread X _ x).trans (congrArg X (funext fun a => Fin.ext (by
    show off a + 1 * (x a).val = (x a).val
    rw [hoff a]; omega)))

theorem whole_st_read {κ : Kind} {sp : Space} {s : Shape} {e : EltTy} (v : View sig κ sp s e) (f : v.ty.Contents (Elt Ideal))
    (off : Fin s.rank → ℕ) (hoff : ∀ a, off a = 0) (inb : ∀ a, off a + s.size a ≤ s.size a)
    (p : (Rect.unit (s := s) off s.size inb).shape.Idx → Elt Ideal e) (L : List (View.Piece (Elt Ideal) s e)) :
    v.read (Elt Ideal) (v.writes (Elt Ideal) f (⟨Rect.unit (s := s) off s.size inb, p⟩ :: L)) = p := by
  funext x
  have hx : (Rect.unit (s := s) off s.size inb).emb x = x := funext fun a => Fin.ext (by
    rw [Rect.emb_apply, Rect.off_unit, Rect.stride_unit, hoff a]; omega)
  have := View.read_writes_cons_emb (v := v) (f := f) (Rect.unit (s := s) off s.size inb) p L x
  rw [hx] at this
  exact this

theorem sout0_B_0_eq (hc0 : ¬cond0_0 i) (hc1 : ¬cond0_1 i) (xs0 xs1 : Vec Ideal S33x8192 .f32) :
    (outs0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.1 = stepAcc (k0_pay8 (F := Ideal)) (k0_pay9 (F := Ideal) x0 x1 x4 x5 x6 x7 x8 x9) x2 xs0 := by
  unfold outs0_B rd4 kernelRun0_B
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg11 x9 _ (by decide), whole_ld harg4 x2 _ (by decide)]
  have h := loop1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 (F := Ideal)) (k0_pay9 (F := Ideal) x0 x1 x4 x5 x6 x7 x8 x9) x2 (harg15.unread xs0) [] VS0_0 VS0_0.junk
  rw [List.append_nil, harg15.read_unread] at h
  exact h

theorem sout0_B_1_eq (hc0 : ¬cond0_0 i) (hc1 : ¬cond0_1 i) (xs0 xs1 : Vec Ideal S33x8192 .f32) :
    (outs0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.2 = stepAcc (k0_pay8 (F := Ideal)) (Pay0.proj2 (k0_pay7 (F := Ideal) x0 x1 x4 x5 x6 x7 x8) x10) x3 xs1 := by
  unfold outs0_B rd4 kernelRun0_B
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg12 x10 _ (by decide), whole_ld harg5 x3 _ (by decide)]
  have h := loop2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay7 (F := Ideal) x0 x1 x4 x5 x6 x7 x8) (k0_pay8 (F := Ideal)) x10 x3 (harg16.unread xs1) [] VS0_1 VS0_1.junk
  rw [List.append_nil, harg16.read_unread] at h
  exact h

theorem sout0_C_0_eq (hc0 : ¬cond0_0 i) (hc1 : cond0_1 i) (xs0 xs1 : Vec Ideal S33x8192 .f32) :
    (outs0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.1 = stepAcc (k0_pay8 (F := Ideal)) (k0_pay9 (F := Ideal) x0 x1 x4 x5 x6 x7 x8 x9) x2 xs0 := by
  unfold outs0_C rd4 kernelRun0_C
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg11 x9 _ (by decide), whole_ld harg4 x2 _ (by decide)]
  have h := loop1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 (F := Ideal)) (k0_pay9 (F := Ideal) x0 x1 x4 x5 x6 x7 x8 x9) x2 (harg15.unread xs0) [] VS0_0 VS0_0.junk
  rw [List.append_nil, harg15.read_unread] at h
  exact h

theorem sout0_C_1_eq (hc0 : ¬cond0_0 i) (hc1 : cond0_1 i) (xs0 xs1 : Vec Ideal S33x8192 .f32) :
    (outs0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.2.2 = stepAcc (k0_pay8 (F := Ideal)) (Pay0.proj2 (k0_pay7 (F := Ideal) x0 x1 x4 x5 x6 x7 x8) x10) x3 xs1 := by
  unfold outs0_C rd4 kernelRun0_C
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg12 x10 _ (by decide), whole_ld harg5 x3 _ (by decide)]
  have h := loop2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay7 (F := Ideal) x0 x1 x4 x5 x6 x7 x8) (k0_pay8 (F := Ideal)) x10 x3 (harg16.unread xs1) [] VS0_1 VS0_1.junk
  rw [List.append_nil, harg16.read_unread] at h
  exact h

theorem sout0_A_0_eq (hc0 : cond0_0 i) (hc1 : ¬cond0_1 i) :
    (outs0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 = stepAcc (k0_pay8 (F := Ideal)) (k0_pay9 (F := Ideal) x0 x1 x4 x5 x6 x7 x8 x9) x2 (k0_pay5 (F := Ideal)) := by
  unfold outs0_A rd4 kernelRun0_A
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg11 x9 _ (by decide), whole_ld harg4 x2 _ (by decide)]
  refine ((loop1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 (F := Ideal)) (k0_pay9 (F := Ideal) x0 x1 x4 x5 x6 x7 x8 x9) x2 (arg15.view.writes (Elt Ideal) arg15.view.junk _) _ VS0_0 VS0_0.junk).trans ?_)
  rw [whole_st_read arg15.view arg15.view.junk _ (by decide) _ _]

theorem sout0_A_1_eq (hc0 : cond0_0 i) (hc1 : ¬cond0_1 i) :
    (outs0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.2 = stepAcc (k0_pay8 (F := Ideal)) (Pay0.proj2 (k0_pay7 (F := Ideal) x0 x1 x4 x5 x6 x7 x8) x10) x3 (k0_pay6 (F := Ideal)) := by
  unfold outs0_A rd4 kernelRun0_A
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg12 x10 _ (by decide), whole_ld harg5 x3 _ (by decide)]
  refine ((loop2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay7 (F := Ideal) x0 x1 x4 x5 x6 x7 x8) (k0_pay8 (F := Ideal)) x10 x3 (arg16.view.writes (Elt Ideal) arg16.view.junk _) _ VS0_1 VS0_1.junk).trans ?_)
  rw [whole_st_read arg16.view arg16.view.junk _ (by decide) _ _]

theorem whole_readAt {κ : Kind} {sp : Space} {s : Shape} {e : EltTy} (v : View sig κ sp s e) (f : v.ty.Contents (Elt Ideal))
    (off : Fin s.rank → ℕ) (hoff : ∀ a, off a = 0) (inb : ∀ a, off a + s.size a ≤ s.size a) :
    v.readAt (Elt Ideal) (Rect.unit (s := s) off s.size inb).toLoadRect f = v.read (Elt Ideal) f :=
  funext fun x => congrArg (v.read (Elt Ideal) f) (funext fun a => Fin.ext (by
    show off a + 1 * (x a).val = (x a).val
    rw [hoff a]; omega))

theorem out0_C_11_eq (hc0 : ¬cond0_0 i) (hc1 : cond0_1 i) (xs0 xs1 : Vec Ideal S33x8192 .f32) (k : Fin 33) (q : Fin 8192) :
    (outs0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).1 (ix3 (0 : Fin 1) k q) = stepAcc (k0_pay8 (F := Ideal)) (k0_pay9 (F := Ideal) x0 x1 x4 x5 x6 x7 x8 x9) x2 xs0 (ix2 k q) := by
  unfold outs0_C rd4 kernelRun0_C
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg11 x9 _ (by decide), whole_ld harg4 x2 _ (by decide)]
  rw [whole_st_read VO0_11 VO0_11.junk _ (by decide) _ _ [], Pay0.pay3_apply, whole_readAt arg15.view _ _ (by decide) _]
  have h := loop1_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay8 (F := Ideal)) (k0_pay9 (F := Ideal) x0 x1 x4 x5 x6 x7 x8 x9) x2 (harg15.unread xs0) [] arg15.view (harg15.unread xs0)
  rw [List.append_nil, harg15.read_unread] at h
  exact congrFun h (ix2 k q)

theorem out0_C_12_eq (hc0 : ¬cond0_0 i) (hc1 : cond0_1 i) (xs0 xs1 : Vec Ideal S33x8192 .f32) (k : Fin 33) (q : Fin 8192) :
    (outs0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1).2.1 (ix3 (0 : Fin 1) k q) = stepAcc (k0_pay8 (F := Ideal)) (Pay0.proj2 (k0_pay7 (F := Ideal) x0 x1 x4 x5 x6 x7 x8) x10) x3 xs1 (ix2 k q) := by
  unfold outs0_C rd4 kernelRun0_C
  dsimp only
  sl_unfold_words
  rw [whole_ld harg2 x0 _ (by decide), whole_ld harg3 x1 _ (by decide), whole_ld harg6 x4 _ (by decide), whole_ld harg7 x5 _ (by decide), whole_ld harg8 x6 _ (by decide), whole_ld harg9 x7 _ (by decide), whole_ld harg10 x8 _ (by decide), whole_ld harg12 x10 _ (by decide), whole_ld harg5 x3 _ (by decide)]
  rw [whole_st_read VO0_12 VO0_12.junk _ (by decide) _ _ [], Pay0.pay4_apply, whole_readAt arg16.view _ _ (by decide) _]
  have h := loop2_read c i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay7 (F := Ideal) x0 x1 x4 x5 x6 x7 x8) (k0_pay8 (F := Ideal)) x10 x3 (harg16.unread xs1) [] arg16.view (harg16.unread xs1)
  rw [List.append_nil, harg16.read_unread] at h
  exact congrFun h (ix2 k q)

end Cert.KernelIdeal.Fr

end
-- ==== Proof.KI.Frame1.lean ====
/-
  The finalize region over 8 blocks of 1024 buckets: its proof data, and the body's obligation at every point.
-/
import proofs.«418107_j79233556677137_3_alg».proof.Proof.Gen.KernelIdeal.Launch
import proofs.«418107_j79233556677137_3_alg».proof.Proof.Gen.KernelIdeal.Skeleton
import proofs.«418107_j79233556677137_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

abbrev VO1_8 : View sig .tc .vmem S6x1024x16 .f32 := (Memref.whole cc1_stg8_0 : Memref sig .tc .vmem S6x1024x16 .f32).view
abbrev ms1_0 (t : Fin cfg1.N) : Memref sig .tc .vmem S2x33x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x33x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x16 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x16 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S6x1024x16 .f32 := win1_8.stage (cfg1.slots t 8)
abbrev hs1_8 (t : Fin cfg1.N) : (ms1_8 t).IsWhole := hstage1_8 ((cfg1.slots t 8).cast nbuf1_8)

section Body
variable (c : Dev nD) (i : grid1.Coords) (arg1 : Memref sig .tc .vmem S2x33x1024 .f32) (harg1 : arg1.IsWhole) (arg2 : Memref sig .tc .vmem S2x33x1024 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S6x1024x16 .f32) (harg9 : arg9.IsWhole)
  (x0 : Vec F S2x33x1024 .f32) (x1 : Vec F S2x33x1024 .f32) (x2 : Vec F S16 .f32) (x3 : Vec F S16 .f32) (x4 : Vec F S16 .f32) (x5 : Vec F S16 .f32) (x6 : Vec F S1024x16 .f32) (x7 : Vec F S1024x16 .f32)

set_option maxHeartbeats 4000000 in
noncomputable def kernelRun1 :
    { L8 : List (View.Piece (Elt F) S6x1024x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__finalize_kernel i arg1 harg1 arg2 harg2 arg3 harg3 arg4 harg4 arg5 harg5 arg6 harg6 arg7 harg7 arg8 harg8 arg9 harg9) K } := by
  refine ⟨?_, fun E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

theorem cover1_8 (y : S6x1024x16.Idx) :
    ∃ pc ∈ (kernelRun1 c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1 c i arg1 harg1 arg2 harg2 arg3 harg3 arg4 harg4 arg5 harg5 arg6 harg6 arg7 harg7 arg8 harg8 arg9 harg9 x0 x1 x2 x3 x4 x5 x6 x7).1 S1x1024x16.size (by sl_kernel_rfl) y

def out1_8 : Vec F S6x1024x16 .f32 :=
  VO1_8.read (Elt F) (VO1_8.writes (Elt F) VO1_8.junk (kernelRun1 c i arg1 harg1 arg2 harg2 arg3 harg3 arg4 harg4 arg5 harg5 arg6 harg6 arg7 harg7 arg8 harg8 arg9 harg9 x0 x1 x2 x3 x4 x5 x6 x7).1)

end Body

section Region1Dat

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2 Set.univ _)
  iframe H0 H1 H2 H3 H4 H5 H6 H7
  isplitl [H8]; · iexists _; iexact H8
  iintro ⟨H0, H1, H2, H3, H4, H5, H6, H7, ⟨%e8, H8⟩⟩
  iframe HΦ Ho H0 H1 H2 H3 H4 H5 H6 H7
  unfold owns; iexists _; isplitr
  swap; · iexact H8
  ipureintro; exact View.read_writes_of_cover _ _ _ _ _ (cover1_8 c _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1Dat

end Cert.KernelIdeal.Fr

end
-- ==== Proof.KI.Run.lean ====
/-
  The whole program as three segments (host operations, the accumulation region, the finalize region): no segment writes
  an argument array, and the result array ends at what the finalize region's write-backs leave.
-/
import proofs.«418107_j79233556677137_3_alg».proof.Proof.KI.Frame0
import proofs.«418107_j79233556677137_3_alg».proof.Proof.KI.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- An input window's array ends a region as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- The host stretch writes only the six arrays it defines: any other buffer is as launched. -/
theorem W1_keep (c : Dev nD) (b : Ref sig .tc)
    (hb : ∀ r ∈ ([main_v0, main_v1, main_v2, main_v3, main_v4, main_v5] : List (Ref sig .tc)), b ≠ r) :
    W1 m ρ c (Proc.devRef .tc b) = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (hb _ (by decide))))

theorem W3_main_arg0 (c : Dev nD) : W3 m ρ c (Proc.devRef .tc main_arg0) = m ((c : Thread nD τ).loc main_arg0) :=
  (W3_of_ne m ρ c main_arg0 (by decide)).trans ((W2_in m ρ c 0 rfl).trans (W1_keep m ρ c main_arg0 (by decide)))

theorem W3_main_arg1 (c : Dev nD) : W3 m ρ c (Proc.devRef .tc main_arg1) = m ((c : Thread nD τ).loc main_arg1) :=
  (W3_of_ne m ρ c main_arg1 (by decide)).trans ((W2_in m ρ c 1 rfl).trans (W1_keep m ρ c main_arg1 (by decide)))

theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_keep m ρ c main_arg2 (by decide)))

theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_keep m ρ c main_arg3 (by decide)))

theorem W3_main_arg4 (c : Dev nD) : W3 m ρ c (Proc.devRef .tc main_arg4) = m ((c : Thread nD τ).loc main_arg4) :=
  (W3_of_ne m ρ c main_arg4 (by decide)).trans ((W2_of_ne m ρ c main_arg4 (by decide)).trans (W1_keep m ρ c main_arg4 (by decide)))

theorem W3_main_arg5 (c : Dev nD) : W3 m ρ c (Proc.devRef .tc main_arg5) = m ((c : Thread nD τ).loc main_arg5) :=
  (W3_of_ne m ρ c main_arg5 (by decide)).trans ((W2_in m ρ c 6 rfl).trans (W1_keep m ρ c main_arg5 (by decide)))

theorem W3_main_arg6 (c : Dev nD) : W3 m ρ c (Proc.devRef .tc main_arg6) = m ((c : Thread nD τ).loc main_arg6) :=
  (W3_of_ne m ρ c main_arg6 (by decide)).trans ((W2_in m ρ c 7 rfl).trans (W1_keep m ρ c main_arg6 (by decide)))

theorem W3_main_arg7 (c : Dev nD) : W3 m ρ c (Proc.devRef .tc main_arg7) = m ((c : Thread nD τ).loc main_arg7) :=
  (W3_of_ne m ρ c main_arg7 (by decide)).trans ((W2_in m ρ c 8 rfl).trans (W1_keep m ρ c main_arg7 (by decide)))

theorem W3_main_arg8 (c : Dev nD) : W3 m ρ c (Proc.devRef .tc main_arg8) = m ((c : Thread nD τ).loc main_arg8) :=
  (W3_of_ne m ρ c main_arg8 (by decide)).trans ((W2_of_ne m ρ c main_arg8 (by decide)).trans (W1_keep m ρ c main_arg8 (by decide)))

theorem W3_main_arg9 (c : Dev nD) : W3 m ρ c (Proc.devRef .tc main_arg9) = m ((c : Thread nD τ).loc main_arg9) :=
  (W3_in m ρ c 2 rfl).trans ((W2_of_ne m ρ c main_arg9 (by decide)).trans (W1_keep m ρ c main_arg9 (by decide)))

theorem W3_main_arg10 (c : Dev nD) : W3 m ρ c (Proc.devRef .tc main_arg10) = m ((c : Thread nD τ).loc main_arg10) :=
  (W3_of_ne m ρ c main_arg10 (by decide)).trans ((W2_of_ne m ρ c main_arg10 (by decide)).trans (W1_keep m ρ c main_arg10 (by decide)))

theorem W3_main_arg11 (c : Dev nD) : W3 m ρ c (Proc.devRef .tc main_arg11) = m ((c : Thread nD τ).loc main_arg11) :=
  (W3_in m ρ c 3 rfl).trans ((W2_of_ne m ρ c main_arg11 (by decide)).trans (W1_keep m ρ c main_arg11 (by decide)))

theorem W3_main_arg12 (c : Dev nD) : W3 m ρ c (Proc.devRef .tc main_arg12) = m ((c : Thread nD τ).loc main_arg12) :=
  (W3_of_ne m ρ c main_arg12 (by decide)).trans ((W2_of_ne m ρ c main_arg12 (by decide)).trans (W1_keep m ρ c main_arg12 (by decide)))

theorem W3_main_arg13 (c : Dev nD) : W3 m ρ c (Proc.devRef .tc main_arg13) = m ((c : Thread nD τ).loc main_arg13) :=
  (W3_in m ρ c 4 rfl).trans ((W2_of_ne m ρ c main_arg13 (by decide)).trans (W1_keep m ρ c main_arg13 (by decide)))

theorem W3_main_arg14 (c : Dev nD) : W3 m ρ c (Proc.devRef .tc main_arg14) = m ((c : Thread nD τ).loc main_arg14) :=
  (W3_of_ne m ρ c main_arg14 (by decide)).trans ((W2_of_ne m ρ c main_arg14 (by decide)).trans (W1_keep m ρ c main_arg14 (by decide)))

theorem W3_main_arg15 (c : Dev nD) : W3 m ρ c (Proc.devRef .tc main_arg15) = m ((c : Thread nD τ).loc main_arg15) :=
  (W3_in m ρ c 5 rfl).trans ((W2_of_ne m ρ c main_arg15 (by decide)).trans (W1_keep m ρ c main_arg15 (by decide)))

theorem W3_main_arg16 (c : Dev nD) : W3 m ρ c (Proc.devRef .tc main_arg16) = m ((c : Thread nD τ).loc main_arg16) :=
  (W3_in m ρ c 6 rfl).trans ((W2_of_ne m ρ c main_arg16 (by decide)).trans (W1_keep m ρ c main_arg16 (by decide)))

theorem W3_main_arg17 (c : Dev nD) : W3 m ρ c (Proc.devRef .tc main_arg17) = m ((c : Thread nD τ).loc main_arg17) :=
  (W3_in m ρ c 7 rfl).trans ((W2_of_ne m ρ c main_arg17 (by decide)).trans (W1_keep m ρ c main_arg17 (by decide)))

theorem W3_main_v7 (c : Dev nD) : W3 m ρ c (Proc.devRef .tc main_v7) = (dat1 (V2 m ρ) c).arrAt 8 cfg1.N :=
  W3_arr m ρ c 8

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- Every argument array holds what it was launched with. -/
abbrev Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)

/-- The run with the result named: the result array ends at what the finalize region's write-backs leave. -/
theorem run_value : θ_run defs (onTc (τ := τ) (main (F := F))) ⟨m, fun _ => 0, ρ⟩ (fun r => ∀ c : Dev nD,
      r.2.mem ((c.tc : Thread nD τ).loc main_v7) = (dat1 (V2 m ρ) c).arrAt 8 cfg1.N ∧ Kept m r.2.mem c) :=
  (θ_run defs _ _).mono (fun r h c => ⟨(h c _ (mem_uc main_v7 (by decide))).trans (W3_main_v7 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c),
      (h c _ (mem_uc main_arg13 (by decide))).trans (W3_main_arg13 m ρ c),
      (h c _ (mem_uc main_arg14 (by decide))).trans (W3_main_arg14 m ρ c),
      (h c _ (mem_uc main_arg15 (by decide))).trans (W3_main_arg15 m ρ c),
      (h c _ (mem_uc main_arg16 (by decide))).trans (W3_main_arg16 m ρ c),
      (h c _ (mem_uc main_arg17 (by decide))).trans (W3_main_arg17 m ρ c)⟩) (run_all m ρ)

theorem frame : θ_run defs (onTc (τ := τ) (main (F := F))) ⟨m, fun _ => 0, ρ⟩ (fun r => ∀ c : Dev nD, Kept m r.2.mem c) :=
  (θ_run defs _ _).mono (fun _ h c => (h c).2) (run_value m ρ)

end Cert.KernelIdeal.Fr

end
-- ==== Proof.SpecArgs.lean ====
/-
  The specification's arguments read off eighteen arrays, and its six planes as one 6 × 8192 × 16 array.
-/
import proofs.«418107_j79233556677137_3_alg».proof.Proof.Spec
import Idealize.ShloMosaic.Lib.ValueIdx

noncomputable section

namespace Cert.Spec

open Idealize.ShloMosaic Idealize.ShloMosaic.ValueIdx

def mkArgs
    (a0 : (⟨2, ![1000000, 64]⟩ : Shape).Idx → EReal) (a1 : (⟨2, ![1000000, 1]⟩ : Shape).Idx → EReal)
    (a2 a3 : (⟨1, ![1000000]⟩ : Shape).Idx → BitVec 32)
    (a4 : (⟨2, ![65, 128]⟩ : Shape).Idx → EReal) (a5 : (⟨1, ![128]⟩ : Shape).Idx → EReal)
    (a6 : (⟨2, ![128, 64]⟩ : Shape).Idx → EReal) (a7 : (⟨1, ![64]⟩ : Shape).Idx → EReal)
    (a8 : (⟨2, ![64, 16]⟩ : Shape).Idx → EReal) (a9 : (⟨1, ![16]⟩ : Shape).Idx → EReal)
    (a10 : (⟨2, ![64, 16]⟩ : Shape).Idx → EReal) (a11 : (⟨1, ![16]⟩ : Shape).Idx → EReal)
    (a12 : (⟨2, ![64, 16]⟩ : Shape).Idx → EReal) (a13 : (⟨1, ![16]⟩ : Shape).Idx → EReal)
    (a14 : (⟨2, ![64, 16]⟩ : Shape).Idx → EReal) (a15 : (⟨1, ![16]⟩ : Shape).Idx → EReal)
    (a16 a17 : (⟨2, ![8192, 16]⟩ : Shape).Idx → EReal) : Args where
  X n j := a0 (ix2 n j)
  y n := a1 (ix2 n (0 : Fin 1))
  id0 n := a2 (ix1 n)
  id1 n := a3 (ix1 n)
  W0 j k := a4 (ix2 j k)
  b0 k := a5 (ix1 k)
  W1 k j := a6 (ix2 k j)
  b1 j := a7 (ix1 j)
  Wm0 j d := a8 (ix2 j d)
  bm0 d := a9 (ix1 d)
  Wv0 j d := a10 (ix2 j d)
  bv0 d := a11 (ix1 d)
  Wm1 j d := a12 (ix2 j d)
  bm1 d := a13 (ix1 d)
  Wv1 j d := a14 (ix2 j d)
  bv1 d := a15 (ix1 d)
  eps0 q d := a16 (ix2 q d)
  eps1 q d := a17 (ix2 q d)

def toArr (G : Fin 6 → Fin 8192 → Fin 16 → EReal) : (⟨3, ![6, 8192, 16]⟩ : Shape).Idx → EReal :=
  fun i => G (i 0) (i 1) (i 2)

end Cert.Spec

end
-- ==== Proof.KI.BlockVal.lean ====
/-
  Point t of the accumulation region reads rows t·4000 … t·4000 + 3999 of X, y and the id columns, and the weights whole.
-/
import proofs.«418107_j79233556677137_3_alg».proof.Proof.KI.Run
import proofs.«418107_j79233556677137_3_alg».proof.Proof.SpecArgs
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (zero one half hit oh)
open scoped BigOperators

variable (m : (ℓ : Loc nD τ sig) → Buf (Elt Ideal) ℓ) (ρ : Dev nD → PrngReg)

def argsOf (c : Dev nD) : Cert.Spec.Args :=
  Cert.Spec.mkArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

def rowOf (t : Fin cfg0.N) (r : Fin 4000) : Fin 1000000 :=
  ⟨t.val * 4000 + r.val, by have : t.val < 250 := lt_of_lt_of_eq t.isLt (show cfg0.N = 250 from N_0); omega⟩

theorem blkv_idx0_0 : ∀ t : Fin cfg0.N, win0_0.index t (0 : Fin 2) = t.val ∧ win0_0.index t (1 : Fin 2) = 0 :=
  (by decide +kernel : ∀ t : Fin grid0.N, _)
theorem blkv_idx0_1 : ∀ t : Fin cfg0.N, win0_1.index t (0 : Fin 2) = t.val ∧ win0_1.index t (1 : Fin 2) = 0 :=
  (by decide +kernel : ∀ t : Fin grid0.N, _)
theorem blkv_idx0_2 : ∀ t : Fin cfg0.N, win0_2.index t (0 : Fin 2) = t.val ∧ win0_2.index t (1 : Fin 2) = 0 :=
  (by decide +kernel : ∀ t : Fin grid0.N, _)
theorem blkv_idx0_3 : ∀ t : Fin cfg0.N, win0_3.index t (0 : Fin 2) = t.val ∧ win0_3.index t (1 : Fin 2) = 0 :=
  (by decide +kernel : ∀ t : Fin grid0.N, _)
theorem blkv_idx0_4 : ∀ t : Fin cfg0.N, win0_4.index t (0 : Fin 2) = 0 ∧ win0_4.index t (1 : Fin 2) = 0 :=
  (by decide +kernel : ∀ t : Fin grid0.N, _)
theorem blkv_idx0_5 : ∀ t : Fin cfg0.N, win0_5.index t (0 : Fin 2) = 0 ∧ win0_5.index t (1 : Fin 2) = 0 :=
  (by decide +kernel : ∀ t : Fin grid0.N, _)
theorem blkv_idx0_6 : ∀ t : Fin cfg0.N, win0_6.index t (0 : Fin 1) = 0 :=
  (by decide +kernel : ∀ t : Fin grid0.N, _)
theorem blkv_idx0_7 : ∀ t : Fin cfg0.N, win0_7.index t (0 : Fin 2) = 0 ∧ win0_7.index t (1 : Fin 2) = 0 :=
  (by decide +kernel : ∀ t : Fin grid0.N, _)
theorem blkv_idx0_8 : ∀ t : Fin cfg0.N, win0_8.index t (0 : Fin 1) = 0 :=
  (by decide +kernel : ∀ t : Fin grid0.N, _)
theorem blkv_idx0_9 : ∀ t : Fin cfg0.N, win0_9.index t (0 : Fin 2) = 0 ∧ win0_9.index t (1 : Fin 2) = 0 :=
  (by decide +kernel : ∀ t : Fin grid0.N, _)
theorem blkv_idx0_10 : ∀ t : Fin cfg0.N, win0_10.index t (0 : Fin 2) = 0 ∧ win0_10.index t (1 : Fin 2) = 0 :=
  (by decide +kernel : ∀ t : Fin grid0.N, _)

theorem blkv_emb0_0 (t : Fin cfg0.N) (r : Fin 4000) (j : Fin 64) :
    ((cfg0.win 0).blk t).view.emb (ix2 r j) = (ix2 (rowOf t r) j : S1000000x64.Idx) := by
  funext a; apply Fin.ext
  obtain ⟨e0, e1⟩ := blkv_idx0_0 t
  match a with
  | ⟨0, _⟩ => show win0_0.index t (0 : Fin 2) * 4000 + 1 * r.val = t.val * 4000 + r.val; omega
  | ⟨1, _⟩ => show win0_0.index t (1 : Fin 2) * 64 + 1 * j.val = j.val; omega
theorem blkv_emb0_1 (t : Fin cfg0.N) (r : Fin 4000) :
    ((cfg0.win 1).blk t).view.emb (ix2 r (0 : Fin 1)) = (ix2 (rowOf t r) (0 : Fin 1) : S1000000x1.Idx) := by
  funext a; apply Fin.ext
  obtain ⟨e0, e1⟩ := blkv_idx0_1 t
  match a with
  | ⟨0, _⟩ => show win0_1.index t (0 : Fin 2) * 4000 + 1 * r.val = t.val * 4000 + r.val; omega
  | ⟨1, _⟩ => show win0_1.index t (1 : Fin 2) * 1 + 1 * 0 = 0; omega
theorem blkv_emb0_2 (t : Fin cfg0.N) (r : Fin 4000) :
    ((cfg0.win 2).blk t).view.emb (ix2 r (0 : Fin 1)) = (ix2 (rowOf t r) (0 : Fin 1) : S1000000x1.Idx) := by
  funext a; apply Fin.ext
  obtain ⟨e0, e1⟩ := blkv_idx0_2 t
  match a with
  | ⟨0, _⟩ => show win0_2.index t (0 : Fin 2) * 4000 + 1 * r.val = t.val * 4000 + r.val; omega
  | ⟨1, _⟩ => show win0_2.index t (1 : Fin 2) * 1 + 1 * 0 = 0; omega
theorem blkv_emb0_3 (t : Fin cfg0.N) (r : Fin 4000) :
    ((cfg0.win 3).blk t).view.emb (ix2 r (0 : Fin 1)) = (ix2 (rowOf t r) (0 : Fin 1) : S1000000x1.Idx) := by
  funext a; apply Fin.ext
  obtain ⟨e0, e1⟩ := blkv_idx0_3 t
  match a with
  | ⟨0, _⟩ => show win0_3.index t (0 : Fin 2) * 4000 + 1 * r.val = t.val * 4000 + r.val; omega
  | ⟨1, _⟩ => show win0_3.index t (1 : Fin 2) * 1 + 1 * 0 = 0; omega
theorem blkv_emb0_4 (t : Fin cfg0.N) (j : Fin 64) (k : Fin 128) :
    ((cfg0.win 4).blk t).view.emb (ix2 j k) = (ix2 j k : S64x128.Idx) := by
  funext a; apply Fin.ext
  obtain ⟨e0, e1⟩ := blkv_idx0_4 t
  match a with
  | ⟨0, _⟩ => show win0_4.index t (0 : Fin 2) * 64 + 1 * j.val = j.val; omega
  | ⟨1, _⟩ => show win0_4.index t (1 : Fin 2) * 128 + 1 * k.val = k.val; omega
theorem blkv_emb0_5 (t : Fin cfg0.N) (k : Fin 128) :
    ((cfg0.win 5).blk t).view.emb (ix2 (0 : Fin 1) k) = (ix2 (0 : Fin 1) k : S1x128.Idx) := by
  funext a; apply Fin.ext
  obtain ⟨e0, e1⟩ := blkv_idx0_5 t
  match a with
  | ⟨0, _⟩ => show win0_5.index t (0 : Fin 2) * 1 + 1 * 0 = 0; omega
  | ⟨1, _⟩ => show win0_5.index t (1 : Fin 2) * 128 + 1 * k.val = k.val; omega
theorem blkv_emb0_6 (t : Fin cfg0.N) (k : Fin 128) :
    ((cfg0.win 6).blk t).view.emb (ix1 k) = (ix1 k : S128.Idx) := by
  funext a; apply Fin.ext
  have e0 := blkv_idx0_6 t
  match a with
  | ⟨0, _⟩ => show win0_6.index t (0 : Fin 1) * 128 + 1 * k.val = k.val; omega
theorem blkv_emb0_7 (t : Fin cfg0.N) (k : Fin 128) (j : Fin 64) :
    ((cfg0.win 7).blk t).view.emb (ix2 k j) = (ix2 k j : S128x64.Idx) := by
  funext a; apply Fin.ext
  obtain ⟨e0, e1⟩ := blkv_idx0_7 t
  match a with
  | ⟨0, _⟩ => show win0_7.index t (0 : Fin 2) * 128 + 1 * k.val = k.val; omega
  | ⟨1, _⟩ => show win0_7.index t (1 : Fin 2) * 64 + 1 * j.val = j.val; omega
theorem blkv_emb0_8 (t : Fin cfg0.N) (j : Fin 64) :
    ((cfg0.win 8).blk t).view.emb (ix1 j) = (ix1 j : S64.Idx) := by
  funext a; apply Fin.ext
  have e0 := blkv_idx0_8 t
  match a with
  | ⟨0, _⟩ => show win0_8.index t (0 : Fin 1) * 64 + 1 * j.val = j.val; omega
theorem blkv_emb0_9 (t : Fin cfg0.N) (j : Fin 64) (k : Fin 32) :
    ((cfg0.win 9).blk t).view.emb (ix2 j k) = (ix2 j k : S64x32.Idx) := by
  funext a; apply Fin.ext
  obtain ⟨e0, e1⟩ := blkv_idx0_9 t
  match a with
  | ⟨0, _⟩ => show win0_9.index t (0 : Fin 2) * 64 + 1 * j.val = j.val; omega
  | ⟨1, _⟩ => show win0_9.index t (1 : Fin 2) * 32 + 1 * k.val = k.val; omega
theorem blkv_emb0_10 (t : Fin cfg0.N) (j : Fin 64) (k : Fin 32) :
    ((cfg0.win 10).blk t).view.emb (ix2 j k) = (ix2 j k : S64x32.Idx) := by
  funext a; apply Fin.ext
  obtain ⟨e0, e1⟩ := blkv_idx0_10 t
  match a with
  | ⟨0, _⟩ => show win0_10.index t (0 : Fin 2) * 64 + 1 * j.val = j.val; omega
  | ⟨1, _⟩ => show win0_10.index t (1 : Fin 2) * 32 + 1 * k.val = k.val; omega

theorem blkv_host_v0 (c : Dev nD) :
    (V1 m ρ c main_v0 : S64x128.Idx → EReal)
      = extractStridedSlice S64x128 ![0, 0] (m ((c : Thread nD τ).loc main_arg4)) slices_S65x128_S64x128_0_0 := by
  show StableHlo.after hostOps0 (W0 m ρ c) (Proc.devRef .tc main_v0) = _
  after_results
theorem blkv_host_v1 (c : Dev nD) :
    (V1 m ρ c main_v1 : S1x128.Idx → EReal)
      = extractStridedSlice S1x128 ![64, 0] (m ((c : Thread nD τ).loc main_arg4)) slices_S65x128_S1x128_64_0 := by
  show StableHlo.after hostOps0 (W0 m ρ c) (Proc.devRef .tc main_v1) = _
  after_results
theorem blkv_host_v2 (c : Dev nD) :
    (V1 m ρ c main_v2 : S1000000x1.Idx → BitVec 32)
      = shapeCast S1000000x1 (m ((c : Thread nD τ).loc main_arg2)) shapeCasts_S1000000_S1000000x1 := by
  show StableHlo.after hostOps0 (W0 m ρ c) (Proc.devRef .tc main_v2) = _
  after_results
  rfl
theorem blkv_host_v3 (c : Dev nD) :
    (V1 m ρ c main_v3 : S1000000x1.Idx → BitVec 32)
      = shapeCast S1000000x1 (m ((c : Thread nD τ).loc main_arg3)) shapeCasts_S1000000_S1000000x1 := by
  show StableHlo.after hostOps0 (W0 m ρ c) (Proc.devRef .tc main_v3) = _
  after_results
  rfl
theorem blkv_host_v4 (c : Dev nD) :
    (V1 m ρ c main_v4 : S64x32.Idx → EReal)
      = concatenate S64x32 1 [⟨S64x16, m ((c : Thread nD τ).loc main_arg8)⟩, ⟨S64x16, m ((c : Thread nD τ).loc main_arg10)⟩]
          concatenates_S64x16_S64x16_S64x32_d1 := by
  show StableHlo.after hostOps0 (W0 m ρ c) (Proc.devRef .tc main_v4) = _
  after_results
theorem blkv_host_v5 (c : Dev nD) :
    (V1 m ρ c main_v5 : S64x32.Idx → EReal)
      = concatenate S64x32 1 [⟨S64x16, m ((c : Thread nD τ).loc main_arg12)⟩, ⟨S64x16, m ((c : Thread nD τ).loc main_arg14)⟩]
          concatenates_S64x16_S64x16_S64x32_d1 := by
  show StableHlo.after hostOps0 (W0 m ρ c) (Proc.devRef .tc main_v5) = _
  after_results

theorem blkv_column_apply (x : S1000000.Idx → BitVec 32) (n : Fin 1000000) :
    shapeCast S1000000x1 x shapeCasts_S1000000_S1000000x1 (ix2 n (0 : Fin 1)) = x (ix1 n) :=
  shapeCast_apply x _ (ix2 n (0 : Fin 1)) (ix1 n) (by
    rw [Shape.rowMajor_val_one, Shape.rowMajor_val_two]
    show n.val = n.val * 1 + 0
    omega)

theorem blkv_rows_apply (x : S65x128.Idx → EReal) (j : Fin 64) (k : Fin 128) :
    extractStridedSlice S64x128 ![0, 0] x slices_S65x128_S64x128_0_0 (ix2 j k) = x (ix2 (Fin.castSucc j) k) :=
  extractStridedSlice_apply _ x _ (ix2 j k) (ix2 (Fin.castSucc j) k) (fun a => by
    match a with
    | ⟨0, _⟩ => show j.val = 0 + j.val; omega
    | ⟨1, _⟩ => show k.val = 0 + k.val; omega)

theorem blkv_lastRow_apply (x : S65x128.Idx → EReal) (k : Fin 128) :
    extractStridedSlice S1x128 ![64, 0] x slices_S65x128_S1x128_64_0 (ix2 (0 : Fin 1) k) = x (ix2 (Fin.last 64) k) :=
  extractStridedSlice_apply _ x _ (ix2 (0 : Fin 1) k) (ix2 (Fin.last 64) k) (fun a => by
    match a with
    | ⟨0, _⟩ => show 64 = 64 + 0; omega
    | ⟨1, _⟩ => show k.val = 0 + k.val; omega)

theorem blkv_sideBySide_apply (a b : S64x16.Idx → EReal) (j : Fin 64) (k : Fin 32) :
    concatenate S64x32 1 [⟨S64x16, a⟩, ⟨S64x16, b⟩] concatenates_S64x16_S64x16_S64x32_d1 (ix2 j k)
      = Cert.Spec.wmv (fun j d => a (ix2 j d)) (fun j d => b (ix2 j d)) j k := by
  unfold Cert.Spec.wmv
  by_cases h : k.val < 16
  · rw [dif_pos h]
    exact concatenate_pair_apply_left (1 : Fin 2) a b _ (ix2 j k) rfl (ix2 j ⟨k.val, h⟩) (fun d => by
      match d with
      | ⟨0, _⟩ => rfl
      | ⟨1, _⟩ => rfl)
  · rw [dif_neg h]
    exact concatenate_pair_apply_right (1 : Fin 2) a b _ (ix2 j k) rfl rfl (ix2 j ⟨k.val - 16, by omega⟩)
      (fun d hd => by
        match d with
        | ⟨0, _⟩ => rfl
        | ⟨1, _⟩ => exact absurd rfl hd)
      (by show (k.val - 16) + 16 = k.val; omega)

theorem blk0_X (c : Dev nD) (t : Fin cfg0.N) (r : Fin 4000) (j : Fin 64) :
    (iblk0 (F := Ideal) (V1 m ρ) c 0 t : Vec Ideal S4000x64 .f32) (ix2 r j) = (argsOf m c).X (rowOf t r) j := by
  show V1 m ρ c main_arg0 (((cfg0.win 0).blk t).view.emb (ix2 r j)) = m ((c : Thread nD τ).loc main_arg0) (ix2 (rowOf t r) j)
  rw [blkv_emb0_0, show V1 m ρ c main_arg0 = m ((c : Thread nD τ).loc main_arg0) from W1_keep m ρ c main_arg0 (by decide)]
theorem blk0_y (c : Dev nD) (t : Fin cfg0.N) (r : Fin 4000) :
    (iblk0 (F := Ideal) (V1 m ρ) c 1 t : Vec Ideal S4000x1 .f32) (ix2 r (0 : Fin 1)) = (argsOf m c).y (rowOf t r) := by
  show V1 m ρ c main_arg1 (((cfg0.win 1).blk t).view.emb (ix2 r (0 : Fin 1))) = m ((c : Thread nD τ).loc main_arg1) (ix2 (rowOf t r) (0 : Fin 1))
  rw [blkv_emb0_1, show V1 m ρ c main_arg1 = m ((c : Thread nD τ).loc main_arg1) from W1_keep m ρ c main_arg1 (by decide)]
theorem blk0_id0 (c : Dev nD) (t : Fin cfg0.N) (r : Fin 4000) :
    (iblk0 (F := Ideal) (V1 m ρ) c 2 t : Vec Ideal S4000x1 .i32) (ix2 r (0 : Fin 1)) = (argsOf m c).id0 (rowOf t r) := by
  show V1 m ρ c main_v2 (((cfg0.win 2).blk t).view.emb (ix2 r (0 : Fin 1))) = m ((c : Thread nD τ).loc main_arg2) (ix1 (rowOf t r))
  rw [blkv_emb0_2, blkv_host_v2, blkv_column_apply]
theorem blk0_id1 (c : Dev nD) (t : Fin cfg0.N) (r : Fin 4000) :
    (iblk0 (F := Ideal) (V1 m ρ) c 3 t : Vec Ideal S4000x1 .i32) (ix2 r (0 : Fin 1)) = (argsOf m c).id1 (rowOf t r) := by
  show V1 m ρ c main_v3 (((cfg0.win 3).blk t).view.emb (ix2 r (0 : Fin 1))) = m ((c : Thread nD τ).loc main_arg3) (ix1 (rowOf t r))
  rw [blkv_emb0_3, blkv_host_v3, blkv_column_apply]
theorem blk0_W0x (c : Dev nD) (t : Fin cfg0.N) (j : Fin 64) (k : Fin 128) :
    (iblk0 (F := Ideal) (V1 m ρ) c 4 t : Vec Ideal S64x128 .f32) (ix2 j k) = (argsOf m c).W0 (Fin.castSucc j) k := by
  show V1 m ρ c main_v0 (((cfg0.win 4).blk t).view.emb (ix2 j k)) = m ((c : Thread nD τ).loc main_arg4) (ix2 (Fin.castSucc j) k)
  rw [blkv_emb0_4, blkv_host_v0, blkv_rows_apply]
theorem blk0_w0y (c : Dev nD) (t : Fin cfg0.N) (k : Fin 128) :
    (iblk0 (F := Ideal) (V1 m ρ) c 5 t : Vec Ideal S1x128 .f32) (ix2 (0 : Fin 1) k) = (argsOf m c).W0 (Fin.last 64) k := by
  show V1 m ρ c main_v1 (((cfg0.win 5).blk t).view.emb (ix2 (0 : Fin 1) k)) = m ((c : Thread nD τ).loc main_arg4) (ix2 (Fin.last 64) k)
  rw [blkv_emb0_5, blkv_host_v1, blkv_lastRow_apply]
theorem blk0_b0 (c : Dev nD) (t : Fin cfg0.N) (k : Fin 128) :
    (iblk0 (F := Ideal) (V1 m ρ) c 6 t : Vec Ideal S128 .f32) (ix1 k) = (argsOf m c).b0 k := by
  show V1 m ρ c main_arg5 (((cfg0.win 6).blk t).view.emb (ix1 k)) = m ((c : Thread nD τ).loc main_arg5) (ix1 k)
  rw [blkv_emb0_6, show V1 m ρ c main_arg5 = m ((c : Thread nD τ).loc main_arg5) from W1_keep m ρ c main_arg5 (by decide)]
theorem blk0_W1 (c : Dev nD) (t : Fin cfg0.N) (k : Fin 128) (j : Fin 64) :
    (iblk0 (F := Ideal) (V1 m ρ) c 7 t : Vec Ideal S128x64 .f32) (ix2 k j) = (argsOf m c).W1 k j := by
  show V1 m ρ c main_arg6 (((cfg0.win 7).blk t).view.emb (ix2 k j)) = m ((c : Thread nD τ).loc main_arg6) (ix2 k j)
  rw [blkv_emb0_7, show V1 m ρ c main_arg6 = m ((c : Thread nD τ).loc main_arg6) from W1_keep m ρ c main_arg6 (by decide)]
theorem blk0_b1 (c : Dev nD) (t : Fin cfg0.N) (j : Fin 64) :
    (iblk0 (F := Ideal) (V1 m ρ) c 8 t : Vec Ideal S64 .f32) (ix1 j) = (argsOf m c).b1 j := by
  show V1 m ρ c main_arg7 (((cfg0.win 8).blk t).view.emb (ix1 j)) = m ((c : Thread nD τ).loc main_arg7) (ix1 j)
  rw [blkv_emb0_8, show V1 m ρ c main_arg7 = m ((c : Thread nD τ).loc main_arg7) from W1_keep m ρ c main_arg7 (by decide)]
theorem blk0_wmv0 (c : Dev nD) (t : Fin cfg0.N) (j : Fin 64) (k : Fin 32) :
    (iblk0 (F := Ideal) (V1 m ρ) c 9 t : Vec Ideal S64x32 .f32) (ix2 j k) = Cert.Spec.wmv (argsOf m c).Wm0 (argsOf m c).Wv0 j k := by
  show V1 m ρ c main_v4 (((cfg0.win 9).blk t).view.emb (ix2 j k))
    = Cert.Spec.wmv (fun j d => m ((c : Thread nD τ).loc main_arg8) (ix2 j d)) (fun j d => m ((c : Thread nD τ).loc main_arg10) (ix2 j d)) j k
  rw [blkv_emb0_9, blkv_host_v4, blkv_sideBySide_apply]
theorem blk0_wmv1 (c : Dev nD) (t : Fin cfg0.N) (j : Fin 64) (k : Fin 32) :
    (iblk0 (F := Ideal) (V1 m ρ) c 10 t : Vec Ideal S64x32 .f32) (ix2 j k) = Cert.Spec.wmv (argsOf m c).Wm1 (argsOf m c).Wv1 j k := by
  show V1 m ρ c main_v5 (((cfg0.win 10).blk t).view.emb (ix2 j k))
    = Cert.Spec.wmv (fun j d => m ((c : Thread nD τ).loc main_arg12) (ix2 j d)) (fun j d => m ((c : Thread nD τ).loc main_arg14) (ix2 j d)) j k
  rw [blkv_emb0_10, blkv_host_v5, blkv_sideBySide_apply]

theorem V2_main_arg9 (c : Dev nD) : V2 m ρ c main_arg9 = m ((c.tc : Thread nD τ).loc main_arg9) :=
  (W2_of_ne m ρ c main_arg9 (by decide)).trans (W1_keep m ρ c main_arg9 (by decide))
theorem V2_main_arg11 (c : Dev nD) : V2 m ρ c main_arg11 = m ((c.tc : Thread nD τ).loc main_arg11) :=
  (W2_of_ne m ρ c main_arg11 (by decide)).trans (W1_keep m ρ c main_arg11 (by decide))
theorem V2_main_arg13 (c : Dev nD) : V2 m ρ c main_arg13 = m ((c.tc : Thread nD τ).loc main_arg13) :=
  (W2_of_ne m ρ c main_arg13 (by decide)).trans (W1_keep m ρ c main_arg13 (by decide))
theorem V2_main_arg15 (c : Dev nD) : V2 m ρ c main_arg15 = m ((c.tc : Thread nD τ).loc main_arg15) :=
  (W2_of_ne m ρ c main_arg15 (by decide)).trans (W1_keep m ρ c main_arg15 (by decide))
theorem V2_main_arg16 (c : Dev nD) : V2 m ρ c main_arg16 = m ((c.tc : Thread nD τ).loc main_arg16) :=
  (W2_of_ne m ρ c main_arg16 (by decide)).trans (W1_keep m ρ c main_arg16 (by decide))
theorem V2_main_arg17 (c : Dev nD) : V2 m ρ c main_arg17 = m ((c.tc : Thread nD τ).loc main_arg17) :=
  (W2_of_ne m ρ c main_arg17 (by decide)).trans (W1_keep m ρ c main_arg17 (by decide))

end Cert.KernelIdeal.Fr

end
-- ==== Proof.KI.AccVal.lean ====
/-
  After point c·125 + i accumulator s holds the specification's accumulator of core c after i + 1 steps: induction on the point.
-/
import proofs.«418107_j79233556677137_3_alg».proof.Proof.KI.CaseVal
import proofs.«418107_j79233556677137_3_alg».proof.Proof.KI.BlockVal
import proofs.«418107_j79233556677137_3_alg».proof.Proof.KI.Pay0

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (zero one half hit oh)
open scoped BigOperators

open Cert.Spec (Args zK hK projK wmv row partK accK P0 P1)
open Cert.KernelIdeal.Pay0 (zRow hRow pcat proj2)

variable (m : (ℓ : Loc nD τ sig) → Buf (Elt Ideal) ℓ) (ρ : Dev nD → PrngReg)

theorem N0_lt (t : Fin cfg0.N) : t.val < 250 := lt_of_lt_of_eq t.isLt (show cfg0.N = 250 from N_0)

theorem row_eq (t : Fin cfg0.N) (r : Fin 4000) (h2 : t.val / 125 < 2) (h125 : t.val % 125 < 125) :
    row ⟨t.val / 125, h2⟩ ⟨t.val % 125, h125⟩ r = rowOf t r :=
  Fin.ext (by unfold row rowOf; simp only; have := Nat.div_add_mod t.val 125; omega)

theorem zRow_blk (c : Dev nD) (t : Fin cfg0.N) (r : Fin 4000) (j : Fin 64) :
    zRow (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t) r j = zK (argsOf m c) (rowOf t r) j := by
  unfold zRow hRow zK hK
  simp only [blk0_X, blk0_y, blk0_W0x, blk0_w0y, blk0_b0, blk0_W1, blk0_b1]

theorem pcat0_blk (c : Dev nD) (t : Fin cfg0.N) (r : Fin 4000) (k : Fin 33) :
    pcat (k0_pay9 (F := Ideal) (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t) (iblk0 (F := Ideal) (V1 m ρ) c 9 t)) (k0_pay8 (F := Ideal)) r k = P0 (argsOf m c) (rowOf t r) k := by
  unfold pcat P0 projK
  by_cases h : k.val < 32
  · rw [dif_pos h, dif_pos h, Pay0.pay9_apply]
    refine Finset.sum_congr rfl fun j _ => ?_
    rw [zRow_blk, blk0_wmv0]
  · rw [dif_neg h, dif_neg h, Pay0.pay8_apply]

theorem pcat1_blk (c : Dev nD) (t : Fin cfg0.N) (r : Fin 4000) (k : Fin 33) :
    pcat (proj2 (k0_pay7 (F := Ideal) (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t)) (iblk0 (F := Ideal) (V1 m ρ) c 10 t)) (k0_pay8 (F := Ideal)) r k = P1 (argsOf m c) (rowOf t r) k := by
  unfold pcat P1 projK
  by_cases h : k.val < 32
  · rw [dif_pos h, dif_pos h]
    show (∑ j : Fin 64, k0_pay7 (F := Ideal) (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t) (ix2 r j) * (iblk0 (F := Ideal) (V1 m ρ) c 10 t) (ix2 j (⟨k.val, h⟩ : Fin 32))) = _
    refine Finset.sum_congr rfl fun j _ => ?_
    rw [Pay0.pay7_apply, zRow_blk, blk0_wmv1]
  · rw [dif_neg h, dif_neg h, Pay0.pay8_apply]

theorem step0_blk (c : Dev nD) (t : Fin cfg0.N) (xs : Vec Ideal S33x8192 .f32) (k : Fin 33) (q : Fin 8192)
    (h2 : t.val / 125 < 2) (h125 : t.val % 125 < 125) :
    stepAcc (k0_pay8 (F := Ideal)) (k0_pay9 (F := Ideal) (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t) (iblk0 (F := Ideal) (V1 m ρ) c 9 t)) (iblk0 (F := Ideal) (V1 m ρ) c 2 t) xs (ix2 k q)
      = xs (ix2 k q) + partK (P0 (argsOf m c)) (argsOf m c).id0 ⟨t.val / 125, h2⟩ ⟨t.val % 125, h125⟩ k q := by
  rw [stepAcc_ix2]; unfold stepAccAt partK
  simp only [pcat0_blk, blk0_id0, row_eq]

theorem step1_blk (c : Dev nD) (t : Fin cfg0.N) (xs : Vec Ideal S33x8192 .f32) (k : Fin 33) (q : Fin 8192)
    (h2 : t.val / 125 < 2) (h125 : t.val % 125 < 125) :
    stepAcc (k0_pay8 (F := Ideal)) (proj2 (k0_pay7 (F := Ideal) (iblk0 (F := Ideal) (V1 m ρ) c 0 t) (iblk0 (F := Ideal) (V1 m ρ) c 1 t) (iblk0 (F := Ideal) (V1 m ρ) c 4 t) (iblk0 (F := Ideal) (V1 m ρ) c 5 t) (iblk0 (F := Ideal) (V1 m ρ) c 6 t) (iblk0 (F := Ideal) (V1 m ρ) c 7 t) (iblk0 (F := Ideal) (V1 m ρ) c 8 t)) (iblk0 (F := Ideal) (V1 m ρ) c 10 t)) (iblk0 (F := Ideal) (V1 m ρ) c 3 t) xs (ix2 k q)
      = xs (ix2 k q) + partK (P1 (argsOf m c)) (argsOf m c).id1 ⟨t.val / 125, h2⟩ ⟨t.val % 125, h125⟩ k q := by
  rw [stepAcc_ix2]; unfold stepAccAt partK
  simp only [pcat1_blk, blk0_id1, row_eq]

theorem accK_congr (P : Fin 1000000 → Fin 33 → EReal) (id : Fin 1000000 → BitVec 32) (a a' : ℕ) (ha : a < 2) (ha' : a' < 2)
    (b b' : ℕ) (e1 : a = a') (e2 : b = b') (k : Fin 33) (q : Fin 8192) :
    accK P id ⟨a, ha⟩ b k q = accK P id ⟨a', ha'⟩ b' k q := by subst e1 e2; rfl

theorem accK_succ (P : Fin 1000000 → Fin 33 → EReal) (id : Fin 1000000 → BitVec 32) (c' : Fin 2) (i : ℕ) (hi : i < 125)
    (k : Fin 33) (q : Fin 8192) :
    accK P id c' (i + 1) k q = accK P id c' i k q + partK P id c' ⟨i, hi⟩ k q := by
  show accK P id c' i k q + (if h : i < 125 then partK P id c' ⟨i, h⟩ k q else 0) = _
  rw [dif_pos hi]

theorem acc_inv (c : Dev nD) : ∀ (n : ℕ) (t : Fin cfg0.N), t.val = n →
    (∀ (k : Fin 33) (q : Fin 8192) (h2 : t.val / 125 < 2),
      (outsAt0 (F := Ideal) (V1 m ρ) c t.val t.isLt).2.2.1 (ix2 k q)
        = accK (P0 (argsOf m c)) (argsOf m c).id0 ⟨t.val / 125, h2⟩ (t.val % 125 + 1) k q)
    ∧ (∀ (k : Fin 33) (q : Fin 8192) (h2 : t.val / 125 < 2),
      (outsAt0 (F := Ideal) (V1 m ρ) c t.val t.isLt).2.2.2 (ix2 k q)
        = accK (P1 (argsOf m c)) (argsOf m c).id1 ⟨t.val / 125, h2⟩ (t.val % 125 + 1) k q) := by
  intro n
  induction n using Nat.strong_induction_on with
  | _ n ih =>
    intro t ht
    have hN := N0_lt t
    have h125 : t.val % 125 < 125 := Nat.mod_lt _ (by decide)
    by_cases h0 : t.val % 125 = 0
    ·
      have h1 : ¬ t.val % 125 = 124 := by omega
      rw [outsAt0_A (V1 m ρ) c t h0 h1]
      unfold stepA
      rw [sout0_A_0_eq, sout0_A_1_eq]
      refine ⟨fun k q h2 => ?_, fun k q h2 => ?_⟩
      · rw [step0_blk m ρ c t _ k q h2 h125, Pay0.pay5_apply]
        have hi : (⟨t.val % 125, h125⟩ : Fin 125) = ⟨0, by decide⟩ := Fin.ext h0
        rw [hi, accK_congr _ _ _ _ h2 h2 (t.val % 125 + 1) (0 + 1) rfl (by omega), accK_succ _ _ _ 0 (by decide)]
        rfl
      · rw [step1_blk m ρ c t _ k q h2 h125, Pay0.pay6_apply]
        have hi : (⟨t.val % 125, h125⟩ : Fin 125) = ⟨0, by decide⟩ := Fin.ext h0
        rw [hi, accK_congr _ _ _ _ h2 h2 (t.val % 125 + 1) (0 + 1) rfl (by omega), accK_succ _ _ _ 0 (by decide)]
        rfl
    ·
      have hpos : 0 < t.val := by omega
      have hprev := ih (t.val - 1) (by omega) ⟨t.val - 1, by have := t.isLt; omega⟩ rfl
      have e1 : (t.val - 1) / 125 = t.val / 125 := by omega
      have e2 : (t.val - 1) % 125 + 1 = t.val % 125 := by omega
      have h2' : ∀ h2 : t.val / 125 < 2, (t.val - 1) / 125 < 2 := fun h2 => by omega
      by_cases h1 : t.val % 125 = 124
      · rw [outsAt0_C (V1 m ρ) c t h0 h1]
        unfold stepC
        rw [sout0_C_0_eq, sout0_C_1_eq]
        refine ⟨fun k q h2 => ?_, fun k q h2 => ?_⟩
        · rw [step0_blk m ρ c t _ k q h2 h125, hprev.1 k q (h2' h2),
            accK_congr _ _ _ _ (h2' h2) h2 _ _ e1 e2, accK_succ _ _ _ _ h125]
        · rw [step1_blk m ρ c t _ k q h2 h125, hprev.2 k q (h2' h2),
            accK_congr _ _ _ _ (h2' h2) h2 _ _ e1 e2, accK_succ _ _ _ _ h125]
      · rw [outsAt0_B (V1 m ρ) c t h0 h1]
        unfold stepB
        rw [sout0_B_0_eq, sout0_B_1_eq]
        refine ⟨fun k q h2 => ?_, fun k q h2 => ?_⟩
        · rw [step0_blk m ρ c t _ k q h2 h125, hprev.1 k q (h2' h2),
            accK_congr _ _ _ _ (h2' h2) h2 _ _ e1 e2, accK_succ _ _ _ _ h125]
        · rw [step1_blk m ρ c t _ k q h2 h125, hprev.2 k q (h2' h2),
            accK_congr _ _ _ _ (h2' h2) h2 _ _ e1 e2, accK_succ _ _ _ _ h125]

end Cert.KernelIdeal.Fr

end
-- ==== Proof.KI.Final0.lean ====
/-
  Plane a of each accumulator array is written back once, at the last point of core a's walk, and holds that core's
  accumulator after all 125 steps.
-/
import proofs.«418107_j79233556677137_3_alg».proof.Proof.KI.AccVal

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (zero one half hit oh)
open scoped BigOperators

open Cert.Spec (Args accK P0 P1)

variable (m : (ℓ : Loc nD τ sig) → Buf (Elt Ideal) ℓ) (ρ : Dev nD → PrngReg)

def Gacc0 (c : Dev nD) : S2x33x8192.Idx → EReal :=
  fun i => accK (P0 (argsOf m c)) (argsOf m c).id0 (i 0) 125 (i 1) (i 2)

theorem Gacc0_ix3 (c : Dev nD) (a : Fin 2) (k : Fin 33) (q : Fin 8192) :
    Gacc0 m c (ix3 a k q) = accK (P0 (argsOf m c)) (argsOf m c).id0 a 125 k q := rfl

theorem idx_facts11 : ∀ t : Fin cfg0.N, win0_11.index t (0 : Fin 3) = t.val / 125
    ∧ win0_11.index t (1 : Fin 3) = 0 ∧ win0_11.index t (2 : Fin 3) = 0 :=
  (by decide +kernel : ∀ t : Fin grid0.N, _)

theorem out_flush11 (c : Dev nD) (t : Fin cfg0.N) (h1 : t.val % 125 = 124) (k : Fin 33) (q : Fin 8192) (h2 : t.val / 125 < 2) :
    (outsAt0 (F := Ideal) (V1 m ρ) c t.val t.isLt).1 (ix3 (0 : Fin 1) k q)
      = accK (P0 (argsOf m c)) (argsOf m c).id0 ⟨t.val / 125, h2⟩ 125 k q := by
  have hN := N0_lt t
  have h0 : ¬ t.val % 125 = 0 := by omega
  have h125 : t.val % 125 < 125 := by omega
  have hprev := (acc_inv m ρ c (t.val - 1) ⟨t.val - 1, by have := t.isLt; omega⟩ rfl).1 k q (by show (t.val - 1) / 125 < 2; omega)
  rw [outsAt0_C (V1 m ρ) c t h0 h1]
  unfold stepC
  rw [out0_C_11_eq, step0_blk m ρ c t _ k q h2 h125, hprev,
    accK_congr _ _ _ _ (by omega) h2 _ _ (by omega : (t.val - 1) / 125 = t.val / 125) (by omega : (t.val - 1) % 125 + 1 = t.val % 125),
    ← accK_succ _ _ _ _ h125]
  exact accK_congr _ _ _ _ h2 h2 _ _ rfl (by omega) k q

theorem flushed11_eq (c : Dev nD) (t : Fin cfg0.N) (hf : (cfg0.win 11).flush t = true) :
    (dat0 (F := Ideal) (V1 m ρ) c).flushed 11 t = ((cfg0.win 11).blk t).view.read (Elt Ideal) (Gacc0 m c) := by
  have h1 : t.val % 125 = 124 := (flush0_11 t).mp hf
  have hN := N0_lt t
  have h2 : t.val / 125 < 2 := by omega
  obtain ⟨e0, e1, e2⟩ := idx_facts11 t
  show (cfg0.win 11).cut (grid0.coords t) ((dat0 (F := Ideal) (V1 m ρ) c).after 11 t) = _
  rw [after0_11]
  funext y
  obtain ⟨a, k, q, rfl⟩ : ∃ (a : Fin 1) (k : Fin 33) (q : Fin 8192), y = ix3 a k q := ⟨y 0, y 1, y 2, eq_ix3 y⟩
  obtain rfl : a = 0 := Fin.ext (by omega)
  have he : ((cfg0.win 11).blk t).view.emb (ix3 (0 : Fin 1) k q) = ix3 (⟨t.val / 125, h2⟩ : Fin 2) k q := by
    funext b; apply Fin.ext
    match b with
    | ⟨0, _⟩ => show win0_11.index t (0 : Fin 3) * 1 + 1 * 0 = t.val / 125; omega
    | ⟨1, _⟩ => show win0_11.index t (1 : Fin 3) * 33 + 1 * k.val = k.val; omega
    | ⟨2, _⟩ => show win0_11.index t (2 : Fin 3) * 8192 + 1 * q.val = q.val; omega
  show (outsAt0 (F := Ideal) (V1 m ρ) c t.val t.isLt).1 (ix3 (0 : Fin 1) k q) = Gacc0 m c (((cfg0.win 11).blk t).view.emb (ix3 (0 : Fin 1) k q))
  rw [he, Gacc0_ix3, out_flush11 m ρ c t h1 k q h2]

theorem mem_blk11 (t : Fin cfg0.N) (i : S2x33x8192.Idx) :
    i ∈ ((cfg0.win 11).blk t).view.set ↔ ∀ a : Fin 3, win0_11.index t a * S1x33x8192.size a ≤ (i a).val ∧ (i a).val < win0_11.index t a * S1x33x8192.size a + S1x33x8192.size a := by
  show i ∈ ((View.whole main_v6_0).slice (win0_11.rect t)).set ↔ _
  rw [View.set_slice_whole, Rect.mem_set_unit]
  exact Iff.rfl

theorem cover11 (i : S2x33x8192.Idx) :
    ∃ t : Fin cfg0.N, (cfg0.win 11).flush t = true ∧ i ∈ ((cfg0.win 11).blk t).view.set := by
  have hi0 : (i 0).val < 2 := (i 0).isLt
  have hi1 : (i 1).val < 33 := (i 1).isLt
  have hi2 : (i 2).val < 8192 := (i 2).isLt
  let t : Fin cfg0.N := ⟨(i 0).val * 125 + 124, by rw [show cfg0.N = 250 from N_0]; omega⟩
  obtain ⟨e0, e1, e2⟩ := idx_facts11 t
  have ht : t.val = (i 0).val * 125 + 124 := rfl
  refine ⟨t, (flush0_11 t).mpr (by omega), ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 33 ≤ (i 1).val ∧ (i 1).val < win0_11.index t (1 : Fin 3) * 33 + 33; omega
  | ⟨2, _⟩ => show win0_11.index t (2 : Fin 3) * 8192 ≤ (i 2).val ∧ (i 2).val < win0_11.index t (2 : Fin 3) * 8192 + 8192; omega

theorem acc0_array (c : Dev nD) : (dat0 (F := Ideal) (V1 m ρ) c).arrAt 11 cfg0.N = Gacc0 m c :=
  (dat0 (F := Ideal) (V1 m ρ) c).arrAt_eq_of_cover 11 (Gacc0 m c) (fun t hf => flushed11_eq m ρ c t hf) (cover11)

def Gacc1 (c : Dev nD) : S2x33x8192.Idx → EReal :=
  fun i => accK (P1 (argsOf m c)) (argsOf m c).id1 (i 0) 125 (i 1) (i 2)

theorem Gacc1_ix3 (c : Dev nD) (a : Fin 2) (k : Fin 33) (q : Fin 8192) :
    Gacc1 m c (ix3 a k q) = accK (P1 (argsOf m c)) (argsOf m c).id1 a 125 k q := rfl

theorem idx_facts12 : ∀ t : Fin cfg0.N, win0_12.index t (0 : Fin 3) = t.val / 125
    ∧ win0_12.index t (1 : Fin 3) = 0 ∧ win0_12.index t (2 : Fin 3) = 0 :=
  (by decide +kernel : ∀ t : Fin grid0.N, _)

theorem out_flush12 (c : Dev nD) (t : Fin cfg0.N) (h1 : t.val % 125 = 124) (k : Fin 33) (q : Fin 8192) (h2 : t.val / 125 < 2) :
    (outsAt0 (F := Ideal) (V1 m ρ) c t.val t.isLt).2.1 (ix3 (0 : Fin 1) k q)
      = accK (P1 (argsOf m c)) (argsOf m c).id1 ⟨t.val / 125, h2⟩ 125 k q := by
  have hN := N0_lt t
  have h0 : ¬ t.val % 125 = 0 := by omega
  have h125 : t.val % 125 < 125 := by omega
  have hprev := (acc_inv m ρ c (t.val - 1) ⟨t.val - 1, by have := t.isLt; omega⟩ rfl).2 k q (by show (t.val - 1) / 125 < 2; omega)
  rw [outsAt0_C (V1 m ρ) c t h0 h1]
  unfold stepC
  rw [out0_C_12_eq, step1_blk m ρ c t _ k q h2 h125, hprev,
    accK_congr _ _ _ _ (by omega) h2 _ _ (by omega : (t.val - 1) / 125 = t.val / 125) (by omega : (t.val - 1) % 125 + 1 = t.val % 125),
    ← accK_succ _ _ _ _ h125]
  exact accK_congr _ _ _ _ h2 h2 _ _ rfl (by omega) k q

theorem flushed12_eq (c : Dev nD) (t : Fin cfg0.N) (hf : (cfg0.win 12).flush t = true) :
    (dat0 (F := Ideal) (V1 m ρ) c).flushed 12 t = ((cfg0.win 12).blk t).view.read (Elt Ideal) (Gacc1 m c) := by
  have h1 : t.val % 125 = 124 := (flush0_12 t).mp hf
  have hN := N0_lt t
  have h2 : t.val / 125 < 2 := by omega
  obtain ⟨e0, e1, e2⟩ := idx_facts12 t
  show (cfg0.win 12).cut (grid0.coords t) ((dat0 (F := Ideal) (V1 m ρ) c).after 12 t) = _
  rw [after0_12]
  funext y
  obtain ⟨a, k, q, rfl⟩ : ∃ (a : Fin 1) (k : Fin 33) (q : Fin 8192), y = ix3 a k q := ⟨y 0, y 1, y 2, eq_ix3 y⟩
  obtain rfl : a = 0 := Fin.ext (by omega)
  have he : ((cfg0.win 12).blk t).view.emb (ix3 (0 : Fin 1) k q) = ix3 (⟨t.val / 125, h2⟩ : Fin 2) k q := by
    funext b; apply Fin.ext
    match b with
    | ⟨0, _⟩ => show win0_12.index t (0 : Fin 3) * 1 + 1 * 0 = t.val / 125; omega
    | ⟨1, _⟩ => show win0_12.index t (1 : Fin 3) * 33 + 1 * k.val = k.val; omega
    | ⟨2, _⟩ => show win0_12.index t (2 : Fin 3) * 8192 + 1 * q.val = q.val; omega
  show (outsAt0 (F := Ideal) (V1 m ρ) c t.val t.isLt).2.1 (ix3 (0 : Fin 1) k q) = Gacc1 m c (((cfg0.win 12).blk t).view.emb (ix3 (0 : Fin 1) k q))
  rw [he, Gacc1_ix3, out_flush12 m ρ c t h1 k q h2]

theorem mem_blk12 (t : Fin cfg0.N) (i : S2x33x8192.Idx) :
    i ∈ ((cfg0.win 12).blk t).view.set ↔ ∀ a : Fin 3, win0_12.index t a * S1x33x8192.size a ≤ (i a).val ∧ (i a).val < win0_12.index t a * S1x33x8192.size a + S1x33x8192.size a := by
  show i ∈ ((View.whole main_v6_1).slice (win0_12.rect t)).set ↔ _
  rw [View.set_slice_whole, Rect.mem_set_unit]
  exact Iff.rfl

theorem cover12 (i : S2x33x8192.Idx) :
    ∃ t : Fin cfg0.N, (cfg0.win 12).flush t = true ∧ i ∈ ((cfg0.win 12).blk t).view.set := by
  have hi0 : (i 0).val < 2 := (i 0).isLt
  have hi1 : (i 1).val < 33 := (i 1).isLt
  have hi2 : (i 2).val < 8192 := (i 2).isLt
  let t : Fin cfg0.N := ⟨(i 0).val * 125 + 124, by rw [show cfg0.N = 250 from N_0]; omega⟩
  obtain ⟨e0, e1, e2⟩ := idx_facts12 t
  have ht : t.val = (i 0).val * 125 + 124 := rfl
  refine ⟨t, (flush0_12 t).mpr (by omega), ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 33 ≤ (i 1).val ∧ (i 1).val < win0_12.index t (1 : Fin 3) * 33 + 33; omega
  | ⟨2, _⟩ => show win0_12.index t (2 : Fin 3) * 8192 ≤ (i 2).val ∧ (i 2).val < win0_12.index t (2 : Fin 3) * 8192 + 8192; omega

theorem acc1_array (c : Dev nD) : (dat0 (F := Ideal) (V1 m ρ) c).arrAt 12 cfg0.N = Gacc1 m c :=
  (dat0 (F := Ideal) (V1 m ρ) c).arrAt_eq_of_cover 12 (Gacc1 m c) (fun t hf => flushed12_eq m ρ c t hf) (cover12)

end Cert.KernelIdeal.Fr

end
-- ==== Proof.KI.Pay1.lean ====
/-
  The finalize body's arithmetic at an index: the cores' planes added, rows 0..31 divided by max(row 32, 1), biases
  added, and mean + exp(0.5 · log_var) · eps.
-/
import proofs.«418107_j79233556677137_3_alg».proof.Proof.Gen.KernelIdeal.Skeleton
import proofs.«418107_j79233556677137_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay1

open Cert.KernelIdeal Cert.KernelIdeal.Gen
open Idealize.ShloMosaic Idealize.ShloMosaic.ValueIdx
open Cert.Spec (zero one half hit oh)
open scoped BigOperators

theorem planes_apply (v0 v2 : Vec Ideal S1x33x1024 .f32) (k : Fin 33) (q' : Fin 1024) :
    addf (shapeCast S33x1024 v0 shapeCasts_S1x33x1024_S33x1024 : FVec Ideal S33x1024 .f32)
        (shapeCast S33x1024 v2 shapeCasts_S1x33x1024_S33x1024) (ix2 k q')
      = v0 (ix3 (0 : Fin 1) k q') + v2 (ix3 (0 : Fin 1) k q') := by
  refine (addf_apply _ _ _).trans ?_
  rw [shapeCast_1ab_ab_apply v0, shapeCast_1ab_ab_apply v2]

theorem cols_bias_apply (X : FVec Ideal S1024x32 .f32) (b : Vec Ideal S16 .f32) (o : ℕ)
    (h : S1024x32.Slices ![0, o] S1024x16) (q' : Fin 1024) (d : Fin 16) (k : Fin 32)
    (hk : k.val = o + d.val) :
    addf (extractStridedSlice S1024x16 ![0, o] X h : FVec Ideal S1024x16 .f32)
        (broadcastTo S1024x16 (shapeCast S1x16 b shapeCasts_S16_S1x16 : FVec Ideal S1x16 .f32)
          broadcasts_S1x16_S1024x16) (ix2 q' d)
      = X (ix2 q' k) + b (ix1 d) := by
  refine (addf_apply _ _ _).trans ?_
  rw [slice2_axis1_apply o X h q' d k hk, broadcastTo_1b_ab_apply, shapeCast_a_1a_apply b]

theorem unit_apply (v : FVec Ideal S1024x16 .f32) (q' : Fin 1024) (d : Fin 16) :
    (shapeCast S1x1024x16 v shapeCasts_S1024x16_S1x1024x16 : FVec Ideal S1x1024x16 .f32)
        (ix3 (0 : Fin 1) q' d) = v (ix2 q' d) :=
  shapeCast_ab_1ab_apply v _ _ q' d

def bt (v0 v2 : Vec Ideal S1x33x1024 .f32) (k : Fin 32) (q' : Fin 1024) : EReal :=
  Ideal.div (v0 (ix3 (0 : Fin 1) (Fin.castSucc k) q') + v2 (ix3 (0 : Fin 1) (Fin.castSucc k) q'))
    (max (v0 (ix3 (0 : Fin 1) (Fin.last 32) q') + v2 (ix3 (0 : Fin 1) (Fin.last 32) q')) one)

theorem pay2_apply (v0 v2 : Vec Ideal S1x33x1024 .f32) (q' : Fin 1024) (k : Fin 32) :
    k1_pay2 (F := Ideal) v0 v2 (ix2 q' k) = bt v0 v2 k q' := by
  unfold k1_pay2 bt
  refine (transpose_ix2_apply _ _ q' k).trans ?_
  refine (divf_apply _ _ _).trans ?_
  rw [slice2_axis0_apply 0 _ _ k q' (Fin.castSucc k) (by simp), planes_apply,
    broadcastTo_1b_ab_apply]
  refine congrArg _ ?_
  refine (maximumf_apply _ _ _).trans ?_
  rw [slice2_axis0_apply 32 _ _ (0 : Fin 1) q' (Fin.last 32) (by simp), planes_apply]
  rfl

theorem pay3_apply (v12 v14 : Vec Ideal S1x33x1024 .f32) (q' : Fin 1024) (k : Fin 32) :
    k1_pay3 (F := Ideal) v12 v14 (ix2 q' k) = bt v12 v14 k q' := by
  exact pay2_apply v12 v14 q' k

theorem pay4_apply (v0 v2 : Vec Ideal S1x33x1024 .f32) (v25 : Vec Ideal S16 .f32) (q' : Fin 1024) (d : Fin 16) :
    k1_pay4 (F := Ideal) v0 v2 v25 (ix2 q' d) = bt v0 v2 ⟨d.val, by omega⟩ q' + v25 (ix1 d) := by
  unfold k1_pay4
  rw [cols_bias_apply _ v25 0 _ q' d ⟨d.val, by omega⟩ (by simp), pay2_apply]

theorem pay5_apply (v0 v2 : Vec Ideal S1x33x1024 .f32) (v30 : Vec Ideal S16 .f32) (q' : Fin 1024) (d : Fin 16) :
    k1_pay5 (F := Ideal) v0 v2 v30 (ix2 q' d) = bt v0 v2 ⟨16 + d.val, by omega⟩ q' + v30 (ix1 d) := by
  unfold k1_pay5
  rw [cols_bias_apply _ v30 16 _ q' d ⟨16 + d.val, by omega⟩ rfl, pay2_apply]

theorem pay6_apply (v0 v2 : Vec Ideal S1x33x1024 .f32) (v25 v30 : Vec Ideal S16 .f32) (v37 : Vec Ideal S1024x16 .f32) (q' : Fin 1024) (d : Fin 16) :
    k1_pay6 (F := Ideal) v0 v2 v25 v30 v37 (ix2 q' d)
      = (bt v0 v2 ⟨d.val, by omega⟩ q' + v25 (ix1 d))
        + Ideal.exp (half * (bt v0 v2 ⟨16 + d.val, by omega⟩ q' + v30 (ix1 d))) * v37 (ix2 q' d) := by
  unfold k1_pay6
  show k1_pay4 (F := Ideal) v0 v2 v25 (ix2 q' d)
      + Ideal.exp (half * k1_pay5 (F := Ideal) v0 v2 v30 (ix2 q' d)) * v37 (ix2 q' d) = _
  rw [pay4_apply, pay5_apply]

theorem pay7_apply (v23 : FVec Ideal S1024x32 .f32) (v41 : Vec Ideal S16 .f32) (q' : Fin 1024) (d : Fin 16) :
    k1_pay7 (F := Ideal) v23 v41 (ix2 q' d) = v23 (ix2 q' (⟨d.val, by omega⟩ : Fin 32)) + v41 (ix1 d) := by
  unfold k1_pay7
  exact cols_bias_apply v23 v41 0 _ q' d ⟨d.val, by omega⟩ (by simp)

theorem pay8_apply (v23 : FVec Ideal S1024x32 .f32) (v46 : Vec Ideal S16 .f32) (q' : Fin 1024) (d : Fin 16) :
    k1_pay8 (F := Ideal) v23 v46 (ix2 q' d) = v23 (ix2 q' (⟨16 + d.val, by omega⟩ : Fin 32)) + v46 (ix1 d) := by
  unfold k1_pay8
  exact cols_bias_apply v23 v46 16 _ q' d ⟨16 + d.val, by omega⟩ rfl

theorem pay9_apply (v23 : FVec Ideal S1024x32 .f32) (v41 v46 : Vec Ideal S16 .f32) (v53 : Vec Ideal S1024x16 .f32) (q' : Fin 1024) (d : Fin 16) :
    k1_pay9 (F := Ideal) v23 v41 v46 v53 (ix2 q' d)
      = (v23 (ix2 q' (⟨d.val, by omega⟩ : Fin 32)) + v41 (ix1 d))
        + Ideal.exp (half * (v23 (ix2 q' (⟨16 + d.val, by omega⟩ : Fin 32)) + v46 (ix1 d))) * v53 (ix2 q' d) := by
  unfold k1_pay9
  show k1_pay7 (F := Ideal) v23 v41 (ix2 q' d)
      + Ideal.exp (half * k1_pay8 (F := Ideal) v23 v46 (ix2 q' d)) * v53 (ix2 q' d) = _
  rw [pay7_apply, pay8_apply]

theorem pay10_apply (v28 : FVec Ideal S1024x16 .f32) (q' : Fin 1024) (d : Fin 16) :
    k1_pay10 (F := Ideal) v28 (ix3 (0 : Fin 1) q' d) = v28 (ix2 q' d) := by
  exact unit_apply v28 q' d
theorem pay11_apply (v23 : FVec Ideal S1024x32 .f32) (v41 : Vec Ideal S16 .f32) (q' : Fin 1024) (d : Fin 16) :
    k1_pay11 (F := Ideal) v23 v41 (ix3 (0 : Fin 1) q' d) = k1_pay7 (F := Ideal) v23 v41 (ix2 q' d) := by
  exact unit_apply (k1_pay7 (F := Ideal) v23 v41) q' d
theorem pay12_apply (v33 : FVec Ideal S1024x16 .f32) (q' : Fin 1024) (d : Fin 16) :
    k1_pay12 (F := Ideal) v33 (ix3 (0 : Fin 1) q' d) = v33 (ix2 q' d) := by
  exact unit_apply v33 q' d
theorem pay13_apply (v23 : FVec Ideal S1024x32 .f32) (v46 : Vec Ideal S16 .f32) (q' : Fin 1024) (d : Fin 16) :
    k1_pay13 (F := Ideal) v23 v46 (ix3 (0 : Fin 1) q' d) = k1_pay8 (F := Ideal) v23 v46 (ix2 q' d) := by
  exact unit_apply (k1_pay8 (F := Ideal) v23 v46) q' d
theorem pay14_apply (v39 : FVec Ideal S1024x16 .f32) (q' : Fin 1024) (d : Fin 16) :
    k1_pay14 (F := Ideal) v39 (ix3 (0 : Fin 1) q' d) = v39 (ix2 q' d) := by
  exact unit_apply v39 q' d
theorem pay1_apply (v55 : FVec Ideal S1024x16 .f32) (q' : Fin 1024) (d : Fin 16) :
    k1_pay1 (F := Ideal) v55 (ix3 (0 : Fin 1) q' d) = v55 (ix2 q' d) := by
  exact unit_apply v55 q' d

end Cert.KernelIdeal.Pay1

end
-- ==== Proof.KI.Val1.lean ====
/-
  The finalize region's output array: block t holds the six planes at buckets t·1024 … t·1024 + 1023; eight blocks tile it.
-/
import proofs.«418107_j79233556677137_3_alg».proof.Proof.KI.Frame1
import proofs.«418107_j79233556677137_3_alg».proof.Proof.KI.Pay1
import proofs.«418107_j79233556677137_3_alg».proof.Proof.SpecArgs
import Idealize.ShloMosaic.Lib.Pipeline.Value
import Idealize.ShloMosaic.Lib.Pipeline.FrameBody
import Idealize.ShloMosaic.Lib.Writes
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open Cert.Spec (zero one half sample)
open scoped BigOperators

def totG (a : (⟨3, ![2, 33, 8192]⟩ : Shape).Idx → EReal) (k : Fin 33) (q : Fin 8192) : EReal :=
  a (ix3 (0 : Fin 2) k q) + a (ix3 (1 : Fin 2) k q)

def btG (a : (⟨3, ![2, 33, 8192]⟩ : Shape).Idx → EReal) (k : Fin 32) (q : Fin 8192) : EReal :=
  Ideal.div (totG a (Fin.castSucc k) q) (max (totG a (Fin.last 32) q) one)

def meanG (a : (⟨3, ![2, 33, 8192]⟩ : Shape).Idx → EReal) (b : (⟨1, ![16]⟩ : Shape).Idx → EReal) (q : Fin 8192) (d : Fin 16) : EReal :=
  btG a ⟨d.val, by omega⟩ q + b (ix1 d)

def lvG (a : (⟨3, ![2, 33, 8192]⟩ : Shape).Idx → EReal) (b : (⟨1, ![16]⟩ : Shape).Idx → EReal) (q : Fin 8192) (d : Fin 16) : EReal :=
  btG a ⟨16 + d.val, by omega⟩ q + b (ix1 d)

def fin1 (a0 a1 : (⟨3, ![2, 33, 8192]⟩ : Shape).Idx → EReal) (bm0 bv0 bm1 bv1 : (⟨1, ![16]⟩ : Shape).Idx → EReal)
    (e0 e1 : (⟨2, ![8192, 16]⟩ : Shape).Idx → EReal) (a : Fin 6) (q : Fin 8192) (d : Fin 16) : EReal :=
  match a with
  | ⟨0, _⟩ => meanG a0 bm0 q d
  | ⟨1, _⟩ => meanG a1 bm1 q d
  | ⟨2, _⟩ => lvG a0 bv0 q d
  | ⟨3, _⟩ => lvG a1 bv1 q d
  | ⟨4, _⟩ => sample (meanG a0 bm0) (lvG a0 bv0) (fun q d => e0 (ix2 q d)) q d
  | ⟨_ + 5, _⟩ => sample (meanG a1 bm1) (lvG a1 bv1) (fun q d => e1 (ix2 q d)) q d

namespace Val1

def totB (x : Vec Ideal S2x33x1024 .f32) (k : Fin 33) (q' : Fin 1024) : EReal :=
  x (ix3 (0 : Fin 2) k q') + x (ix3 (1 : Fin 2) k q')

def btB (x : Vec Ideal S2x33x1024 .f32) (k : Fin 32) (q' : Fin 1024) : EReal :=
  Ideal.div (totB x (Fin.castSucc k) q') (max (totB x (Fin.last 32) q') one)

def meanB (x : Vec Ideal S2x33x1024 .f32) (b : Vec Ideal S16 .f32) (q' : Fin 1024) (d : Fin 16) : EReal :=
  btB x ⟨d.val, by omega⟩ q' + b (ix1 d)

def lvB (x : Vec Ideal S2x33x1024 .f32) (b : Vec Ideal S16 .f32) (q' : Fin 1024) (d : Fin 16) : EReal :=
  btB x ⟨16 + d.val, by omega⟩ q' + b (ix1 d)

def finB (x0 x1 : Vec Ideal S2x33x1024 .f32) (x2 x3 x4 x5 : Vec Ideal S16 .f32) (x6 x7 : Vec Ideal S1024x16 .f32)
    (a : Fin 6) (q' : Fin 1024) (d : Fin 16) : EReal :=
  match a with
  | ⟨0, _⟩ => meanB x0 x2 q' d
  | ⟨1, _⟩ => meanB x1 x4 q' d
  | ⟨2, _⟩ => lvB x0 x3 q' d
  | ⟨3, _⟩ => lvB x1 x5 q' d
  | ⟨4, _⟩ => meanB x0 x2 q' d + Ideal.exp (half * lvB x0 x3 q' d) * x6 (ix2 q' d)
  | ⟨_ + 5, _⟩ => meanB x1 x4 q' d + Ideal.exp (half * lvB x1 x5 q' d) * x7 (ix2 q' d)

theorem ld_plane (x : Vec Ideal S2x33x1024 .f32) (p : ℕ) (hp : p < 2) (inb : ∀ a, ![p, 0, 0] a + S1x33x1024.size a ≤ S2x33x1024.size a)
    (k : Fin 33) (q' : Fin 1024) :
    View.ld x (Rect.unit (s := S2x33x1024) ![p, 0, 0] S1x33x1024.size inb) (ix3 (0 : Fin 1) k q') = x (ix3 (⟨p, hp⟩ : Fin 2) k q') := by
  show x _ = x _
  refine congrArg x (funext fun a => Fin.ext ?_)
  match a with
  | ⟨0, _⟩ => show p + 1 * 0 = p; omega
  | ⟨1, _⟩ => show 0 + 1 * k.val = k.val; omega
  | ⟨2, _⟩ => show 0 + 1 * q'.val = q'.val; omega

theorem bt_planes (x : Vec Ideal S2x33x1024 .f32) (inb0 inb1) (k : Fin 32) (q' : Fin 1024) :
    Pay1.bt (View.ld x (Rect.unit (s := S2x33x1024) ![0, 0, 0] S1x33x1024.size inb0))
        (View.ld x (Rect.unit (s := S2x33x1024) ![1, 0, 0] S1x33x1024.size inb1)) k q' = btB x k q' := by
  unfold Pay1.bt btB totB
  rw [ld_plane x 0 (by omega) inb0, ld_plane x 0 (by omega) inb0, ld_plane x 1 (by omega) inb1, ld_plane x 1 (by omega) inb1]
  rfl

theorem hz1 : (![0] : Fin 1 → Nat) = fun _ => 0 := funext fun a => by fin_cases a <;> rfl
theorem hz2 : (![0, 0] : Fin 2 → Nat) = fun _ => 0 := funext fun a => by fin_cases a <;> rfl

theorem piece_of (p : ℕ) (hp : p < 6) (inb : ∀ a, ![p, 0, 0] a + S1x1024x16.size a ≤ S6x1024x16.size a)
    (w : S1x1024x16.Idx → EReal) (H : Fin 6 → Fin 1024 → Fin 16 → EReal)
    (h : ∀ (q' : Fin 1024) (d : Fin 16), w (ix3 (0 : Fin 1) q' d) = H ⟨p, hp⟩ q' d) (x : S1x1024x16.Idx) :
    w x = (fun y : S6x1024x16.Idx => H (y 0) (y 1) (y 2))
      ((Rect.unit (s := S6x1024x16) ![p, 0, 0] S1x1024x16.size inb).emb x) := by
  obtain ⟨q', d, rfl⟩ : ∃ (q' : Fin 1024) (d : Fin 16), x = ix3 (0 : Fin 1) q' d :=
    ⟨x 1, x 2, funext fun a => by
      match a with
      | ⟨0, _⟩ => exact Subsingleton.elim (α := Fin 1) _ _
      | ⟨1, _⟩ => rfl
      | ⟨2, _⟩ => rfl⟩
  rw [h]
  show H _ _ _ = H _ _ _
  refine congr (congr (congrArg H (Fin.ext ?_)) (Fin.ext ?_)) (Fin.ext ?_)
  · show p = p + 1 * 0; omega
  · show q'.val = 0 + 1 * q'.val; omega
  · show d.val = 0 + 1 * d.val; omega

theorem out_apply (c : Dev nD) (i : grid1.Coords) (arg1 : Memref sig .tc .vmem S2x33x1024 .f32) (harg1 : arg1.IsWhole) (arg2 : Memref sig .tc .vmem S2x33x1024 .f32) (harg2 : arg2.IsWhole) (arg3 : Memref sig .tc .vmem S16 .f32) (harg3 : arg3.IsWhole) (arg4 : Memref sig .tc .vmem S16 .f32) (harg4 : arg4.IsWhole) (arg5 : Memref sig .tc .vmem S16 .f32) (harg5 : arg5.IsWhole) (arg6 : Memref sig .tc .vmem S16 .f32) (harg6 : arg6.IsWhole) (arg7 : Memref sig .tc .vmem S1024x16 .f32) (harg7 : arg7.IsWhole) (arg8 : Memref sig .tc .vmem S1024x16 .f32) (harg8 : arg8.IsWhole) (arg9 : Memref sig .tc .vmem S6x1024x16 .f32) (harg9 : arg9.IsWhole)
    (x0 x1 : Vec Ideal S2x33x1024 .f32) (x2 x3 x4 x5 : Vec Ideal S16 .f32) (x6 x7 : Vec Ideal S1024x16 .f32)
    (p : Fin 6) (q' : Fin 1024) (d : Fin 16) :
    out1_8 (F := Ideal) c i arg1 harg1 arg2 harg2 arg3 harg3 arg4 harg4 arg5 harg5 arg6 harg6 arg7 harg7 arg8 harg8 arg9 harg9 x0 x1 x2 x3 x4 x5 x6 x7 (ix3 p q' d)
      = finB x0 x1 x2 x3 x4 x5 x6 x7 p q' d := by
  unfold out1_8
  refine View.read_writes_apply_of_pieces VO1_8 VO1_8.junk
    (fun y : S6x1024x16.Idx => finB x0 x1 x2 x3 x4 x5 x6 x7 (y 0) (y 1) (y 2)) _ ?_ (ix3 p q' d)
    (cover1_8 c i arg1 harg1 arg2 harg2 arg3 harg3 arg4 harg4 arg5 harg5 arg6 harg6 arg7 harg7 arg8 harg8 arg9 harg9 x0 x1 x2 x3 x4 x5 x6 x7 (ix3 p q' d))
  unfold kernelRun1
  dsimp only
  sl_unfold_words
  simp only [View.readAt_eq_ld, harg1.read_unread, harg2.read_unread, harg3.read_unread, harg4.read_unread,
    harg5.read_unread, harg6.read_unread, harg7.read_unread, harg8.read_unread,
    View.ld_unit_zero (S := S16) hz1, View.ld_unit_zero (S := S1024x16) hz2]
  intro pc hpc
  simp only [List.mem_cons, List.not_mem_nil, or_false] at hpc
  rcases hpc with rfl | rfl | rfl | rfl | rfl | rfl
  · exact piece_of 5 (by omega) inb_S6x1024x16_S1x1024x16_5_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)
  · exact piece_of 4 (by omega) inb_S6x1024x16_S1x1024x16_4_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)
  · exact piece_of 3 (by omega) inb_S6x1024x16_S1x1024x16_3_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)
  · exact piece_of 2 (by omega) inb_S6x1024x16_S1x1024x16_2_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)
  · exact piece_of 1 (by omega) inb_S6x1024x16_S1x1024x16_1_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)
  · exact piece_of 0 (by omega) inb_S6x1024x16_S1x1024x16_0_0_0 _ (finB x0 x1 x2 x3 x4 x5 x6 x7) (fun q' d => by
      simp only [Pay1.pay1_apply, Pay1.pay10_apply, Pay1.pay11_apply, Pay1.pay12_apply, Pay1.pay13_apply, Pay1.pay14_apply,
        Pay1.pay4_apply, Pay1.pay5_apply, Pay1.pay6_apply, Pay1.pay7_apply, Pay1.pay8_apply, Pay1.pay9_apply, Pay1.pay3_apply, bt_planes]
      rfl)

theorem finB_eq (x0 x1 : Vec Ideal S2x33x1024 .f32) (x2 x3 x4 x5 : Vec Ideal S16 .f32) (x6 x7 : Vec Ideal S1024x16 .f32)
    (a0 a1 : (⟨3, ![2, 33, 8192]⟩ : Shape).Idx → EReal) (b0 b1 b2 b3 : (⟨1, ![16]⟩ : Shape).Idx → EReal)
    (e0 e1 : (⟨2, ![8192, 16]⟩ : Shape).Idx → EReal) (q' : Fin 1024) (q : Fin 8192)
    (h0 : ∀ (cc : Fin 2) (k : Fin 33), x0 (ix3 cc k q') = a0 (ix3 cc k q))
    (h1 : ∀ (cc : Fin 2) (k : Fin 33), x1 (ix3 cc k q') = a1 (ix3 cc k q))
    (h2 : ∀ d : Fin 16, x2 (ix1 d) = b0 (ix1 d)) (h3 : ∀ d : Fin 16, x3 (ix1 d) = b1 (ix1 d))
    (h4 : ∀ d : Fin 16, x4 (ix1 d) = b2 (ix1 d)) (h5 : ∀ d : Fin 16, x5 (ix1 d) = b3 (ix1 d))
    (h6 : ∀ d : Fin 16, x6 (ix2 q' d) = e0 (ix2 q d)) (h7 : ∀ d : Fin 16, x7 (ix2 q' d) = e1 (ix2 q d))
    (p : Fin 6) (d : Fin 16) :
    finB x0 x1 x2 x3 x4 x5 x6 x7 p q' d = fin1 a0 a1 b0 b1 b2 b3 e0 e1 p q d := by
  have t0 : ∀ k, totB x0 k q' = totG a0 k q := fun k => by unfold totB totG; rw [h0, h0]
  have t1 : ∀ k, totB x1 k q' = totG a1 k q := fun k => by unfold totB totG; rw [h1, h1]
  have r0 : ∀ k, btB x0 k q' = btG a0 k q := fun k => by unfold btB btG; rw [t0, t0]
  have r1 : ∀ k, btB x1 k q' = btG a1 k q := fun k => by unfold btB btG; rw [t1, t1]
  have m0 : meanB x0 x2 q' d = meanG a0 b0 q d := by unfold meanB meanG; rw [r0, h2]
  have m1 : meanB x1 x4 q' d = meanG a1 b2 q d := by unfold meanB meanG; rw [r1, h4]
  have l0 : lvB x0 x3 q' d = lvG a0 b1 q d := by unfold lvB lvG; rw [r0, h3]
  have l1 : lvB x1 x5 q' d = lvG a1 b3 q d := by unfold lvB lvG; rw [r1, h5]
  match p with
  | ⟨0, _⟩ => exact m0
  | ⟨1, _⟩ => exact m1
  | ⟨2, _⟩ => exact l0
  | ⟨3, _⟩ => exact l1
  | ⟨4, _⟩ =>
    show meanB x0 x2 q' d + Ideal.exp (half * lvB x0 x3 q' d) * x6 (ix2 q' d)
      = meanG a0 b0 q d + Ideal.exp (half * lvG a0 b1 q d) * e0 (ix2 q d)
    rw [m0, l0, h6]
  | ⟨5, _⟩ =>
    show meanB x1 x4 q' d + Ideal.exp (half * lvB x1 x5 q' d) * x7 (ix2 q' d)
      = meanG a1 b2 q d + Ideal.exp (half * lvG a1 b3 q d) * e1 (ix2 q d)
    rw [m1, l1, h7]

section Region

variable (V : (c : Dev nD) → (b : Ref sig .tc) → Buf (Elt Ideal) ((c : Thread nD τ).loc b))

theorem lt8 (t : Fin cfg1.N) : t.val < 8 := lt_of_lt_of_eq t.isLt N_1

def bkt (t : Fin cfg1.N) (q' : Fin 1024) : Fin 8192 :=
  ⟨t.val * 1024 + q'.val, by have := lt8 t; have := q'.isLt; omega⟩

theorem idx_facts : ∀ t : Fin cfg1.N,
    (win1_0.index t (0 : Fin 3) = 0 ∧ win1_0.index t (1 : Fin 3) = 0 ∧ win1_0.index t (2 : Fin 3) = t.val)
    ∧ (win1_1.index t (0 : Fin 3) = 0 ∧ win1_1.index t (1 : Fin 3) = 0 ∧ win1_1.index t (2 : Fin 3) = t.val)
    ∧ (win1_2.index t (0 : Fin 1) = 0 ∧ win1_3.index t (0 : Fin 1) = 0 ∧ win1_4.index t (0 : Fin 1) = 0 ∧ win1_5.index t (0 : Fin 1) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 3) = 0 ∧ win1_8.index t (1 : Fin 3) = t.val ∧ win1_8.index t (2 : Fin 3) = 0) :=
  (by decide +kernel : ∀ t : Fin grid1.N, _)

theorem blk0_apply (c : Dev nD) (t : Fin cfg1.N) (cc : Fin 2) (k : Fin 33) (q' : Fin 1024) :
    (iblk1 (F := Ideal) V c 0 t : Vec Ideal S2x33x1024 .f32) (ix3 cc k q')
      = (V c main_v6_0 : (⟨3, ![2, 33, 8192]⟩ : Shape).Idx → EReal) (ix3 cc k (bkt t q')) := by
  obtain ⟨⟨e0, e1, e2⟩, -⟩ := idx_facts t
  show (V c main_v6_0 : (⟨3, ![2, 33, 8192]⟩ : Shape).Idx → EReal) (((cfg1.win 0).blk t).view.emb (ix3 cc k q')) = _
  refine congrArg _ (funext fun a => Fin.ext ?_)
  match a with
  | ⟨0, _⟩ => show win1_0.index t (0 : Fin 3) * 2 + 1 * cc.val = cc.val; rw [e0]; omega
  | ⟨1, _⟩ => show win1_0.index t (1 : Fin 3) * 33 + 1 * k.val = k.val; rw [e1]; omega
  | ⟨2, _⟩ => show win1_0.index t (2 : Fin 3) * 1024 + 1 * q'.val = t.val * 1024 + q'.val; rw [e2]; omega

theorem blk1_apply (c : Dev nD) (t : Fin cfg1.N) (cc : Fin 2) (k : Fin 33) (q' : Fin 1024) :
    (iblk1 (F := Ideal) V c 1 t : Vec Ideal S2x33x1024 .f32) (ix3 cc k q')
      = (V c main_v6_1 : (⟨3, ![2, 33, 8192]⟩ : Shape).Idx → EReal) (ix3 cc k (bkt t q')) := by
  obtain ⟨-, ⟨e0, e1, e2⟩, -⟩ := idx_facts t
  show (V c main_v6_1 : (⟨3, ![2, 33, 8192]⟩ : Shape).Idx → EReal) (((cfg1.win 1).blk t).view.emb (ix3 cc k q')) = _
  refine congrArg _ (funext fun a => Fin.ext ?_)
  match a with
  | ⟨0, _⟩ => show win1_1.index t (0 : Fin 3) * 2 + 1 * cc.val = cc.val; rw [e0]; omega
  | ⟨1, _⟩ => show win1_1.index t (1 : Fin 3) * 33 + 1 * k.val = k.val; rw [e1]; omega
  | ⟨2, _⟩ => show win1_1.index t (2 : Fin 3) * 1024 + 1 * q'.val = t.val * 1024 + q'.val; rw [e2]; omega

theorem blk2_apply (c : Dev nD) (t : Fin cfg1.N) (d : Fin 16) :
    (iblk1 (F := Ideal) V c 2 t : Vec Ideal S16 .f32) (ix1 d) = (V c main_arg9 : (⟨1, ![16]⟩ : Shape).Idx → EReal) (ix1 d) := by
  obtain ⟨-, -, ⟨e, -, -, -⟩, -⟩ := idx_facts t
  show (V c main_arg9 : (⟨1, ![16]⟩ : Shape).Idx → EReal) (((cfg1.win 2).blk t).view.emb (ix1 d)) = _
  refine congrArg _ (funext fun a => Fin.ext ?_)
  match a with
  | ⟨0, _⟩ => show win1_2.index t (0 : Fin 1) * 16 + 1 * d.val = d.val; rw [e]; omega

theorem blk3_apply (c : Dev nD) (t : Fin cfg1.N) (d : Fin 16) :
    (iblk1 (F := Ideal) V c 3 t : Vec Ideal S16 .f32) (ix1 d) = (V c main_arg11 : (⟨1, ![16]⟩ : Shape).Idx → EReal) (ix1 d) := by
  obtain ⟨-, -, ⟨-, e, -, -⟩, -⟩ := idx_facts t
  show (V c main_arg11 : (⟨1, ![16]⟩ : Shape).Idx → EReal) (((cfg1.win 3).blk t).view.emb (ix1 d)) = _
  refine congrArg _ (funext fun a => Fin.ext ?_)
  match a with
  | ⟨0, _⟩ => show win1_3.index t (0 : Fin 1) * 16 + 1 * d.val = d.val; rw [e]; omega

theorem blk4_apply (c : Dev nD) (t : Fin cfg1.N) (d : Fin 16) :
    (iblk1 (F := Ideal) V c 4 t : Vec Ideal S16 .f32) (ix1 d) = (V c main_arg13 : (⟨1, ![16]⟩ : Shape).Idx → EReal) (ix1 d) := by
  obtain ⟨-, -, ⟨-, -, e, -⟩, -⟩ := idx_facts t
  show (V c main_arg13 : (⟨1, ![16]⟩ : Shape).Idx → EReal) (((cfg1.win 4).blk t).view.emb (ix1 d)) = _
  refine congrArg _ (funext fun a => Fin.ext ?_)
  match a with
  | ⟨0, _⟩ => show win1_4.index t (0 : Fin 1) * 16 + 1 * d.val = d.val; rw [e]; omega

theorem blk5_apply (c : Dev nD) (t : Fin cfg1.N) (d : Fin 16) :
    (iblk1 (F := Ideal) V c 5 t : Vec Ideal S16 .f32) (ix1 d) = (V c main_arg15 : (⟨1, ![16]⟩ : Shape).Idx → EReal) (ix1 d) := by
  obtain ⟨-, -, ⟨-, -, -, e⟩, -⟩ := idx_facts t
  show (V c main_arg15 : (⟨1, ![16]⟩ : Shape).Idx → EReal) (((cfg1.win 5).blk t).view.emb (ix1 d)) = _
  refine congrArg _ (funext fun a => Fin.ext ?_)
  match a with
  | ⟨0, _⟩ => show win1_5.index t (0 : Fin 1) * 16 + 1 * d.val = d.val; rw [e]; omega

theorem blk6_apply (c : Dev nD) (t : Fin cfg1.N) (q' : Fin 1024) (d : Fin 16) :
    (iblk1 (F := Ideal) V c 6 t : Vec Ideal S1024x16 .f32) (ix2 q' d)
      = (V c main_arg16 : (⟨2, ![8192, 16]⟩ : Shape).Idx → EReal) (ix2 (bkt t q') d) := by
  obtain ⟨-, -, -, ⟨e0, e1⟩, -⟩ := idx_facts t
  show (V c main_arg16 : (⟨2, ![8192, 16]⟩ : Shape).Idx → EReal) (((cfg1.win 6).blk t).view.emb (ix2 q' d)) = _
  refine congrArg _ (funext fun a => Fin.ext ?_)
  match a with
  | ⟨0, _⟩ => show win1_6.index t (0 : Fin 2) * 1024 + 1 * q'.val = t.val * 1024 + q'.val; rw [e0]; omega
  | ⟨1, _⟩ => show win1_6.index t (1 : Fin 2) * 16 + 1 * d.val = d.val; rw [e1]; omega

theorem blk7_apply (c : Dev nD) (t : Fin cfg1.N) (q' : Fin 1024) (d : Fin 16) :
    (iblk1 (F := Ideal) V c 7 t : Vec Ideal S1024x16 .f32) (ix2 q' d)
      = (V c main_arg17 : (⟨2, ![8192, 16]⟩ : Shape).Idx → EReal) (ix2 (bkt t q') d) := by
  obtain ⟨-, -, -, -, ⟨e0, e1⟩, -⟩ := idx_facts t
  show (V c main_arg17 : (⟨2, ![8192, 16]⟩ : Shape).Idx → EReal) (((cfg1.win 7).blk t).view.emb (ix2 q' d)) = _
  refine congrArg _ (funext fun a => Fin.ext ?_)
  match a with
  | ⟨0, _⟩ => show win1_7.index t (0 : Fin 2) * 1024 + 1 * q'.val = t.val * 1024 + q'.val; rw [e0]; omega
  | ⟨1, _⟩ => show win1_7.index t (1 : Fin 2) * 16 + 1 * d.val = d.val; rw [e1]; omega

abbrev GV (c : Dev nD) : Fin 6 → Fin 8192 → Fin 16 → EReal :=
  fin1 (V c main_v6_0) (V c main_v6_1) (V c main_arg9) (V c main_arg11) (V c main_arg13) (V c main_arg15) (V c main_arg16) (V c main_arg17)

theorem point_apply (c : Dev nD) (t : Fin cfg1.N) (p : Fin 6) (q' : Fin 1024) (d : Fin 16) :
    out1_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t) (ix3 p q' d)
      = GV V c p (bkt t q') d :=
  (out_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t) p q' d).trans
    (finB_eq (iblk1 V c 0 t) (iblk1 V c 1 t) (iblk1 V c 2 t) (iblk1 V c 3 t) (iblk1 V c 4 t) (iblk1 V c 5 t) (iblk1 V c 6 t) (iblk1 V c 7 t)
      (V c main_v6_0) (V c main_v6_1) (V c main_arg9) (V c main_arg11) (V c main_arg13) (V c main_arg15) (V c main_arg16) (V c main_arg17) q' (bkt t q')
      (fun cc k => blk0_apply V c t cc k q') (fun cc k => blk1_apply V c t cc k q')
      (fun d => blk2_apply V c t d) (fun d => blk3_apply V c t d) (fun d => blk4_apply V c t d) (fun d => blk5_apply V c t d)
      (fun d => blk6_apply V c t q' d) (fun d => blk7_apply V c t q' d) p d)

theorem flushed_eq (c : Dev nD) (t : Fin cfg1.N) :
    (dat1 (F := Ideal) V c).flushed 8 t
      = ((cfg1.win 8).blk t).view.read (Elt Ideal) (Cert.Spec.toArr (GV V c)) := by
  show (cfg1.win 8).cut (grid1.coords t) ((dat1 (F := Ideal) V c).after 8 t) = _
  rw [after1_8]
  funext y
  obtain ⟨-, -, -, -, -, ⟨o0, o1, o2⟩⟩ := idx_facts t
  have hy : (cfg1.win 8).xinj (grid1.coords t) y
      = ix3 (n0 := 6) (n1 := 1024) (n2 := 16) ⟨(y 0).val, (y 0).isLt⟩ ⟨(y 1).val, (y 1).isLt⟩ ⟨(y 2).val, (y 2).isLt⟩ :=
    funext fun a => by
      match a with
      | ⟨0, _⟩ => rfl
      | ⟨1, _⟩ => rfl
      | ⟨2, _⟩ => rfl
  dsimp only [Pipeline.Window.cut]
  rw [hy, point_apply V c t]
  show GV V c _ _ _ = GV V c ((((cfg1.win 8).blk t).view.emb y) 0) ((((cfg1.win 8).blk t).view.emb y) 1) ((((cfg1.win 8).blk t).view.emb y) 2)
  refine congr (congr (congrArg (GV V c) (Fin.ext ?_)) (Fin.ext ?_)) (Fin.ext ?_)
  · show (y 0).val = win1_8.index t (0 : Fin 3) * 6 + 1 * (y 0).val; rw [o0]; omega
  · show t.val * 1024 + (y 1).val = win1_8.index t (1 : Fin 3) * 1024 + 1 * (y 1).val; rw [o1]; omega
  · show (y 2).val = win1_8.index t (2 : Fin 3) * 16 + 1 * (y 2).val; rw [o2]; omega

theorem mem_blk8 (t : Fin cfg1.N) (i : S6x8192x16.Idx) :
    i ∈ ((cfg1.win 8).blk t).view.set ↔ ∀ a : Fin 3, win1_8.index t a * S6x1024x16.size a ≤ (i a).val
      ∧ (i a).val < win1_8.index t a * S6x1024x16.size a + S6x1024x16.size a := by
  show i ∈ ((View.whole main_v7).slice (win1_8.rect t)).set ↔ _
  rw [View.set_slice_whole, Rect.mem_set_unit]
  exact Iff.rfl

theorem cover8 (i : S6x8192x16.Idx) :
    ∃ t : Fin cfg1.N, (cfg1.win 8).flush t = true ∧ i ∈ ((cfg1.win 8).blk t).view.set := by
  have h0 : (i 0).val < 6 := (i 0).isLt
  have h1 : (i 1).val < 8192 := (i 1).isLt
  have h2 : (i 2).val < 16 := (i 2).isLt
  obtain ⟨t, ht⟩ : ∃ t : Fin cfg1.N, t.val = (i 1).val / 1024 :=
    ⟨⟨(i 1).val / 1024, lt_of_lt_of_eq (by omega) N_1.symm⟩, rfl⟩
  obtain ⟨-, -, -, -, -, ⟨o0, o1, o2⟩⟩ := idx_facts t
  refine ⟨t, flush1_8 t, ?_⟩
  rw [mem_blk8]
  intro a
  match a with
  | ⟨0, _⟩ =>
    show win1_8.index t (0 : Fin 3) * 6 ≤ (i 0).val ∧ (i 0).val < win1_8.index t (0 : Fin 3) * 6 + 6
    rw [o0]; omega
  | ⟨1, _⟩ =>
    show win1_8.index t (1 : Fin 3) * 1024 ≤ (i 1).val ∧ (i 1).val < win1_8.index t (1 : Fin 3) * 1024 + 1024
    rw [o1, ht]; omega
  | ⟨2, _⟩ =>
    show win1_8.index t (2 : Fin 3) * 16 ≤ (i 2).val ∧ (i 2).val < win1_8.index t (2 : Fin 3) * 16 + 16
    rw [o2]; omega

end Region

end Val1

theorem final1 (V : (c : Dev nD) → (b : Ref sig .tc) → Buf (Elt Ideal) ((c : Thread nD τ).loc b)) (c : Dev nD) :
    (dat1 (F := Ideal) V c).arrAt 8 cfg1.N
      = Cert.Spec.toArr (fin1 (V c main_v6_0) (V c main_v6_1) (V c main_arg9) (V c main_arg11) (V c main_arg13) (V c main_arg15)
          (V c main_arg16) (V c main_arg17)) :=
  (dat1 (F := Ideal) V c).arrAt_eq_of_cover 8 (Cert.Spec.toArr (Val1.GV V c)) (fun t _ => Val1.flushed_eq V c t) Val1.cover8

end Cert.KernelIdeal.Fr

end
-- ==== Proof.KI.KVal.lean ====
/-
  The finalize region reads the specification's per-core accumulators, so its output is the kernel arrangement.
-/
import proofs.«418107_j79233556677137_3_alg».proof.Proof.KI.Final0
import proofs.«418107_j79233556677137_3_alg».proof.Proof.KI.Val1

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (zero one half hit oh)
open scoped BigOperators

open Cert.Spec (Args accK totK btK meanK lvK P0 P1 Gker sample)

variable (m : (ℓ : Loc nD τ sig) → Buf (Elt Ideal) ℓ) (ρ : Dev nD → PrngReg)

theorem totG_acc0 (c : Dev nD) (k : Fin 33) (q : Fin 8192) :
    totG (Gacc0 m c) k q = totK (P0 (argsOf m c)) (argsOf m c).id0 k q := rfl
theorem totG_acc1 (c : Dev nD) (k : Fin 33) (q : Fin 8192) :
    totG (Gacc1 m c) k q = totK (P1 (argsOf m c)) (argsOf m c).id1 k q := rfl
theorem btG_acc0 (c : Dev nD) (k : Fin 32) (q : Fin 8192) :
    btG (Gacc0 m c) k q = btK (P0 (argsOf m c)) (argsOf m c).id0 k q := by
  unfold btG btK; rw [totG_acc0, totG_acc0]
theorem btG_acc1 (c : Dev nD) (k : Fin 32) (q : Fin 8192) :
    btG (Gacc1 m c) k q = btK (P1 (argsOf m c)) (argsOf m c).id1 k q := by
  unfold btG btK; rw [totG_acc1, totG_acc1]

theorem meanG_acc0 (c : Dev nD) : meanG (Gacc0 m c) (m ((c.tc : Thread nD τ).loc main_arg9)) = meanK (P0 (argsOf m c)) (argsOf m c).id0 (argsOf m c).bm0 := by
  funext q d; unfold meanG meanK; rw [btG_acc0]; rfl
theorem lvG_acc0 (c : Dev nD) : lvG (Gacc0 m c) (m ((c.tc : Thread nD τ).loc main_arg11)) = lvK (P0 (argsOf m c)) (argsOf m c).id0 (argsOf m c).bv0 := by
  funext q d; unfold lvG lvK; rw [btG_acc0]; rfl
theorem meanG_acc1 (c : Dev nD) : meanG (Gacc1 m c) (m ((c.tc : Thread nD τ).loc main_arg13)) = meanK (P1 (argsOf m c)) (argsOf m c).id1 (argsOf m c).bm1 := by
  funext q d; unfold meanG meanK; rw [btG_acc1]; rfl
theorem lvG_acc1 (c : Dev nD) : lvG (Gacc1 m c) (m ((c.tc : Thread nD τ).loc main_arg15)) = lvK (P1 (argsOf m c)) (argsOf m c).id1 (argsOf m c).bv1 := by
  funext q d; unfold lvG lvK; rw [btG_acc1]; rfl

theorem V2_acc0 (c : Dev nD) : V2 m ρ c main_v6_0 = Gacc0 m c :=
  ((hF0 m ρ c 11).symm).trans (acc0_array m ρ c)
theorem V2_acc1 (c : Dev nD) : V2 m ρ c main_v6_1 = Gacc1 m c :=
  ((hF0 m ρ c 12).symm).trans (acc1_array m ρ c)

theorem kernel_value (c : Dev nD) :
    (dat1 (F := Ideal) (V2 m ρ) c).arrAt 8 cfg1.N = Cert.Spec.toArr (Gker (argsOf m c)) := by
  rw [final1 (V2 m ρ) c, V2_acc0, V2_acc1, V2_main_arg9, V2_main_arg11, V2_main_arg13, V2_main_arg15, V2_main_arg16, V2_main_arg17]
  refine congrArg Cert.Spec.toArr (funext fun a => funext fun q => funext fun d => ?_)
  match a with
  | ⟨0, _⟩ => show meanG (Gacc0 m c) _ q d = meanK _ _ _ q d; rw [meanG_acc0]
  | ⟨1, _⟩ => show meanG (Gacc1 m c) _ q d = meanK _ _ _ q d; rw [meanG_acc1]
  | ⟨2, _⟩ => show lvG (Gacc0 m c) _ q d = lvK _ _ _ q d; rw [lvG_acc0]
  | ⟨3, _⟩ => show lvG (Gacc1 m c) _ q d = lvK _ _ _ q d; rw [lvG_acc1]
  | ⟨4, _⟩ =>
    show sample (meanG (Gacc0 m c) (m ((c.tc : Thread nD τ).loc main_arg9))) (lvG (Gacc0 m c) (m ((c.tc : Thread nD τ).loc main_arg11))) (fun q d => (m ((c.tc : Thread nD τ).loc main_arg16)) (ix2 q d)) q d
      = sample (meanK (P0 (argsOf m c)) (argsOf m c).id0 (argsOf m c).bm0) (lvK (P0 (argsOf m c)) (argsOf m c).id0 (argsOf m c).bv0) (argsOf m c).eps0 q d
    rw [meanG_acc0, lvG_acc0]; rfl
  | ⟨5, _⟩ =>
    show sample (meanG (Gacc1 m c) (m ((c.tc : Thread nD τ).loc main_arg13))) (lvG (Gacc1 m c) (m ((c.tc : Thread nD τ).loc main_arg15))) (fun q d => (m ((c.tc : Thread nD τ).loc main_arg17)) (ix2 q d)) q d
      = sample (meanK (P1 (argsOf m c)) (argsOf m c).id1 (argsOf m c).bm1) (lvK (P1 (argsOf m c)) (argsOf m c).id1 (argsOf m c).bv1) (argsOf m c).eps1 q d
    rw [meanG_acc1, lvG_acc1]; rfl
  | ⟨n + 6, h⟩ => exact absurd h (by omega)

end Cert.KernelIdeal.Fr

end
-- ==== Proof.RefValA.lean ====
/-
  An accumulating scatter at an index: the operand there plus the sum of the updates whose index, read signed, is it.
-/
import proofs.«418107_j79233556677137_3_alg».proof.Proof.Gen.ReferenceIdeal
import proofs.«418107_j79233556677137_3_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Idealize.ShloMosaic Idealize.ShloMosaic.ValueIdx
open scoped BigOperators

abbrev d2 : ScatterDims S8192x64 S1000000x1 S1000000x64 := scatter_S8192x64_S1000000x1_S1000000x64_1_0_0_1
abbrev d1 : ScatterDims S8192 S1000000x1 S1000000 := scatter_S8192_S1000000x1_S1000000_n_0_0_1

section TwoAxes
variable {w : Nat} (n : Fin 1000000) (j : Fin 64) (idx : IVec S1000000x1 w)

theorem d2_start0 : d2.start (ix2 n j) idx (0 : Fin S8192x64.rank) = (idx (ix2 n (0 : Fin 1))).toInt := by
  unfold ScatterDims.start
  rw [dif_pos (show (0 : Fin S8192x64.rank) ∈ d2.scatterDimsToOperandDims from List.mem_singleton.mpr rfl)]
  refine congrArg (fun k => (idx k).toInt) ?_
  funext b
  refine Fin.ext ?_
  match b with
  | ⟨0, _⟩ => rfl
  | ⟨1, _⟩ => rfl

theorem d2_start1 : d2.start (ix2 n j) idx (1 : Fin S8192x64.rank) = 0 := by
  unfold ScatterDims.start
  rw [dif_neg (show ¬(1 : Fin S8192x64.rank) ∈ d2.scatterDimsToOperandDims by decide)]

theorem d2_window0 : d2.window (ix2 n j) (0 : Fin S8192x64.rank) = 0 := by
  unfold ScatterDims.window
  rw [dif_neg (show ¬(0 : Fin S8192x64.rank) ∈ d2.sKept by decide)]

theorem d2_window1 : d2.window (ix2 n j) (1 : Fin S8192x64.rank) = j.val := by
  unfold ScatterDims.window
  rw [dif_pos (show (1 : Fin S8192x64.rank) ∈ d2.sKept by decide)]
  rfl

end TwoAxes

section TwoAxes
variable (n : Fin 1000000) (j : Fin 64) (idx : IVec S1000000x1 32)

theorem d2_lands (q : Fin 8192) (j' : Fin 64) :
    d2.resultIdx? (ix2 n j) idx = some (ix2 q j') ↔ Cert.Spec.hit (idx (ix2 n (0 : Fin 1))) q ∧ j = j' := by
  unfold ScatterDims.resultIdx? Cert.Spec.hit
  split
  · next h =>
    have h0 := h (0 : Fin S8192x64.rank)
    rw [d2_start0, d2_window0] at h0
    rw [Option.some.injEq]
    constructor
    · intro e
      have e0 := congrArg Fin.val (congrFun e (0 : Fin S8192x64.rank))
      have e1 := congrArg Fin.val (congrFun e (1 : Fin S8192x64.rank))
      simp only [d2_start0, d2_window0, d2_start1, d2_window1] at e0 e1
      change _ = q.val at e0
      change _ = j'.val at e1
      exact ⟨by omega, Fin.ext (by omega)⟩
    · rintro ⟨e, rfl⟩
      funext a
      refine Fin.ext ?_
      match a with
      | ⟨0, _⟩ =>
        show (d2.start (ix2 n j) idx (0 : Fin S8192x64.rank) + d2.window (ix2 n j) (0 : Fin S8192x64.rank)).toNat = q.val
        rw [d2_start0, d2_window0, e]; simp
      | ⟨1, _⟩ =>
        show (d2.start (ix2 n j) idx (1 : Fin S8192x64.rank) + d2.window (ix2 n j) (1 : Fin S8192x64.rank)).toNat = j.val
        rw [d2_start1, d2_window1]; simp
  · next h =>
    constructor
    · intro e; exact absurd e (by simp)
    · rintro ⟨e, rfl⟩
      exfalso
      apply h
      intro a
      match a with
      | ⟨0, _⟩ =>
        show 0 ≤ d2.start (ix2 n j) idx (0 : Fin S8192x64.rank) + d2.window (ix2 n j) (0 : Fin S8192x64.rank)
          ∧ d2.start (ix2 n j) idx (0 : Fin S8192x64.rank) + d2.window (ix2 n j) (0 : Fin S8192x64.rank) < (8192 : ℕ)
        rw [d2_start0, d2_window0, e]
        have := q.isLt
        omega
      | ⟨1, _⟩ =>
        show 0 ≤ d2.start (ix2 n j) idx (1 : Fin S8192x64.rank) + d2.window (ix2 n j) (1 : Fin S8192x64.rank)
          ∧ d2.start (ix2 n j) idx (1 : Fin S8192x64.rank) + d2.window (ix2 n j) (1 : Fin S8192x64.rank) < (64 : ℕ)
        rw [d2_start1, d2_window1]
        have := j.isLt
        omega

end TwoAxes

theorem scatter2_apply (x : S8192x64.Idx → EReal) (idx : IVec S1000000x1 32) (upd : S1000000x64.Idx → EReal)
    (q : Fin 8192) (j : Fin 64) :
    Host.scatterAdd (F := Ideal) (φ := .f32) d2 x idx upd (ix2 q j)
      = x (ix2 q j) + ∑ n ∈ Finset.univ.filter (fun n : Fin 1000000 => Cert.Spec.hit (idx (ix2 n (0 : Fin 1))) q), upd (ix2 n j) := by
  show Ideal.hostScatterAdd d2 x idx upd (ix2 q j) = _
  unfold Ideal.hostScatterAdd
  refine congrArg (x (ix2 q j) + ·) ?_
  refine Finset.sum_nbij' (fun u : S1000000x64.Idx => (u 0 : Fin 1000000)) (fun n => ix2 n j) ?_ ?_ ?_ ?_ ?_
  · intro u hu
    obtain ⟨n, c, rfl⟩ : ∃ (n : Fin 1000000) (c : Fin 64), u = ix2 n c := ⟨u 0, u 1, eq_ix2 u⟩
    rw [Finset.mem_filter] at hu ⊢
    exact ⟨Finset.mem_univ _, ((d2_lands n c idx q j).1 hu.2).1⟩
  · intro n hn
    rw [Finset.mem_filter] at hn ⊢
    exact ⟨Finset.mem_univ _, (d2_lands n j idx q j).2 ⟨hn.2, rfl⟩⟩
  · intro u hu
    obtain ⟨n, c, rfl⟩ : ∃ (n : Fin 1000000) (c : Fin 64), u = ix2 n c := ⟨u 0, u 1, eq_ix2 u⟩
    rw [Finset.mem_filter] at hu
    rw [((d2_lands n c idx q j).1 hu.2).2]
  · intro n _
    rfl
  · intro u hu
    obtain ⟨n, c, rfl⟩ : ∃ (n : Fin 1000000) (c : Fin 64), u = ix2 n c := ⟨u 0, u 1, eq_ix2 u⟩
    rw [Finset.mem_filter] at hu
    rw [((d2_lands n c idx q j).1 hu.2).2]

section OneAxis
variable (n : Fin 1000000) (idx : IVec S1000000x1 32)

theorem d1_start0 : d1.start (ix1 n) idx (0 : Fin S8192.rank) = (idx (ix2 n (0 : Fin 1))).toInt := by
  unfold ScatterDims.start
  rw [dif_pos (show (0 : Fin S8192.rank) ∈ d1.scatterDimsToOperandDims from List.mem_singleton.mpr rfl)]
  refine congrArg (fun k => (idx k).toInt) ?_
  funext b
  refine Fin.ext ?_
  match b with
  | ⟨0, _⟩ => rfl
  | ⟨1, _⟩ => rfl

theorem d1_window0 : d1.window (ix1 n) (0 : Fin S8192.rank) = 0 := by
  unfold ScatterDims.window
  rw [dif_neg (show ¬(0 : Fin S8192.rank) ∈ d1.sKept by decide)]

theorem d1_lands (q : Fin 8192) :
    d1.resultIdx? (ix1 n) idx = some (ix1 q) ↔ Cert.Spec.hit (idx (ix2 n (0 : Fin 1))) q := by
  unfold ScatterDims.resultIdx? Cert.Spec.hit
  split
  · next h =>
    have h0 := h (0 : Fin S8192.rank)
    rw [d1_start0, d1_window0] at h0
    rw [Option.some.injEq]
    constructor
    · intro e
      have e0 := congrArg Fin.val (congrFun e (0 : Fin S8192.rank))
      simp only [d1_start0, d1_window0] at e0
      change _ = q.val at e0
      omega
    · intro e
      funext a
      refine Fin.ext ?_
      match a with
      | ⟨0, _⟩ =>
        show (d1.start (ix1 n) idx (0 : Fin S8192.rank) + d1.window (ix1 n) (0 : Fin S8192.rank)).toNat = q.val
        rw [d1_start0, d1_window0, e]; simp
  · next h =>
    constructor
    · intro e; exact absurd e (by simp)
    · intro e
      exfalso
      apply h
      intro a
      match a with
      | ⟨0, _⟩ =>
        show 0 ≤ d1.start (ix1 n) idx (0 : Fin S8192.rank) + d1.window (ix1 n) (0 : Fin S8192.rank)
          ∧ d1.start (ix1 n) idx (0 : Fin S8192.rank) + d1.window (ix1 n) (0 : Fin S8192.rank) < (8192 : ℕ)
        rw [d1_start0, d1_window0, e]
        have := q.isLt
        omega

end OneAxis

theorem scatter1_apply (x : S8192.Idx → EReal) (idx : IVec S1000000x1 32) (upd : S1000000.Idx → EReal) (q : Fin 8192) :
    Host.scatterAdd (F := Ideal) (φ := .f32) d1 x idx upd (ix1 q)
      = x (ix1 q) + ∑ n ∈ Finset.univ.filter (fun n : Fin 1000000 => Cert.Spec.hit (idx (ix2 n (0 : Fin 1))) q), upd (ix1 n) := by
  show Ideal.hostScatterAdd d1 x idx upd (ix1 q) = _
  unfold Ideal.hostScatterAdd
  refine congrArg (x (ix1 q) + ·) ?_
  refine Finset.sum_nbij' (fun u : S1000000.Idx => (u 0 : Fin 1000000)) (fun n => ix1 n) ?_ ?_ ?_ ?_ ?_
  · intro u hu
    obtain ⟨n, rfl⟩ : ∃ n : Fin 1000000, u = ix1 n := ⟨u 0, eq_ix1 u⟩
    rw [Finset.mem_filter] at hu ⊢
    exact ⟨Finset.mem_univ _, (d1_lands n idx q).1 hu.2⟩
  · intro n hn
    rw [Finset.mem_filter] at hn ⊢
    exact ⟨Finset.mem_univ _, (d1_lands n idx q).2 hn.2⟩
  · intro u _
    obtain ⟨n, rfl⟩ : ∃ n : Fin 1000000, u = ix1 n := ⟨u 0, eq_ix1 u⟩
    rfl
  · intro n _
    rfl
  · intro u _
    obtain ⟨n, rfl⟩ : ∃ n : Fin 1000000, u = ix1 n := ⟨u 0, eq_ix1 u⟩
    rfl

end Cert.RefValue

end
-- ==== Proof.RefVal.lean ====
/-
  The reference's stages read at an index, from the arguments up: its result is the reference arrangement.
-/
import proofs.«418107_j79233556677137_3_alg».proof.Proof.Gen.ReferenceIdeal.Run
import proofs.«418107_j79233556677137_3_alg».proof.Proof.Gen.ReferenceIdeal.Read
import proofs.«418107_j79233556677137_3_alg».proof.Proof.Spec
import proofs.«418107_j79233556677137_3_alg».proof.Proof.SpecArgs
import proofs.«418107_j79233556677137_3_alg».proof.Proof.RefValA

noncomputable section

namespace Cert.RefValue

open Cert.ReferenceIdeal Cert.ReferenceIdeal.Gen Idealize.ShloMosaic Idealize.ShloMosaic.ValueIdx
open scoped BigOperators

theorem concat6_at (y0 y1 y2 y3 y4 y5 : S1x8192x16.Idx → EReal)
    (h : Shape.Concatenates [S1x8192x16, S1x8192x16, S1x8192x16, S1x8192x16, S1x8192x16, S1x8192x16] S6x8192x16 0)
    (a : Fin 6) (q : Fin 8192) (d : Fin 16) :
    concatenate S6x8192x16 0 [⟨S1x8192x16, y0⟩, ⟨S1x8192x16, y1⟩, ⟨S1x8192x16, y2⟩, ⟨S1x8192x16, y3⟩, ⟨S1x8192x16, y4⟩,
        ⟨S1x8192x16, y5⟩] h (ix3 a q d)
      = (match a with
          | ⟨0, _⟩ => y0
          | ⟨1, _⟩ => y1
          | ⟨2, _⟩ => y2
          | ⟨3, _⟩ => y3
          | ⟨4, _⟩ => y4
          | ⟨_ + 5, _⟩ => y5) (ix3 (0 : Fin 1) q d) := by
  have hi : ∀ (a : Fin 6) (b : Fin S1x8192x16.rank),
      b.cast (rfl : S1x8192x16.rank = S6x8192x16.rank) ≠ (0 : Fin S6x8192x16.rank) →
      ((ix3 (0 : Fin 1) q d : S1x8192x16.Idx) b).val = ((ix3 a q d : S6x8192x16.Idx) (b.cast rfl)).val := fun a b hb => by
    match b with
    | ⟨0, _⟩ => exact absurd rfl hb
    | ⟨1, _⟩ => rfl
    | ⟨2, _⟩ => rfl
  match a with
  | ⟨0, _⟩ =>
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 0 (show 0 < 6 by omega) S1x8192x16 y0 rfl rfl 0 rfl (ix3 (0 : Fin 1) q d) (hi _) rfl
  | ⟨1, _⟩ =>
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 1 (show 1 < 6 by omega) S1x8192x16 y1 rfl rfl 1 rfl (ix3 (0 : Fin 1) q d) (hi _) rfl
  | ⟨2, _⟩ =>
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 2 (show 2 < 6 by omega) S1x8192x16 y2 rfl rfl 2 rfl (ix3 (0 : Fin 1) q d) (hi _) rfl
  | ⟨3, _⟩ =>
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 3 (show 3 < 6 by omega) S1x8192x16 y3 rfl rfl 3 rfl (ix3 (0 : Fin 1) q d) (hi _) rfl
  | ⟨4, _⟩ =>
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 4 (show 4 < 6 by omega) S1x8192x16 y4 rfl rfl 4 rfl (ix3 (0 : Fin 1) q d) (hi _) rfl
  | ⟨k + 5, hk⟩ =>
    obtain rfl : k = 0 := by omega
    exact concatenate_apply_piece (t := S6x8192x16) 0 [⟨S1x8192x16, y0⟩, ⟨S1x8192x16, y1⟩, ⟨S1x8192x16, y2⟩, ⟨S1x8192x16, y3⟩, ⟨S1x8192x16, y4⟩, ⟨S1x8192x16, y5⟩] h
      (ix3 _ q d) 5 (show 5 < 6 by omega) S1x8192x16 y5 rfl rfl 5 rfl (ix3 (0 : Fin 1) q d) (hi _) rfl

section Stages
variable (x0 : S1000000x64.Idx → EReal) (x1 : S1000000x1.Idx → EReal) (x2 x3 : S1000000.Idx → BitVec 32)
  (x4 : S65x128.Idx → EReal) (x5 : S128.Idx → EReal) (x6 : S128x64.Idx → EReal) (x7 : S64.Idx → EReal)
  (x8 : S64x16.Idx → EReal) (x9 : S16.Idx → EReal) (x10 : S64x16.Idx → EReal) (x11 : S16.Idx → EReal)
  (x12 : S64x16.Idx → EReal) (x13 : S16.Idx → EReal) (x14 : S64x16.Idx → EReal) (x15 : S16.Idx → EReal)
  (x16 x17 : S8192x16.Idx → EReal)

local notation "A" => Cert.Spec.mkArgs x0 x1 x2 x3 x4 x5 x6 x7 x8 x9 x10 x11 x12 x13 x14 x15 x16 x17

theorem v0_at (n : Fin 1000000) (j : Fin 65) :
    Read.val_main_v0 (F := Ideal) x0 x1 (ix2 n j) = Cert.Spec.xy A n j := by
  unfold Read.val_main_v0 Cert.Spec.xy
  by_cases h : j.val < 64
  · rw [dif_pos h]
    exact concatenate_pair_apply_left 1 x0 x1 concatenates_S1000000x64_S1000000x1_S1000000x65_d1 (ix2 n j) rfl
      (ix2 n (⟨j.val, h⟩ : Fin 64)) fun b => by
        match b with
        | ⟨0, _⟩ => rfl
        | ⟨1, _⟩ => rfl
  · rw [dif_neg h]
    have hj := j.isLt
    refine concatenate_pair_apply_right 1 x0 x1 concatenates_S1000000x64_S1000000x1_S1000000x65_d1 (ix2 n j) rfl rfl
      (ix2 n (0 : Fin 1)) (fun b hb => ?_) ?_
    · match b with
      | ⟨0, _⟩ => rfl
      | ⟨1, _⟩ => exact absurd rfl hb
    · show 0 + 64 = j.val
      omega

theorem v5_at (n : Fin 1000000) (k : Fin 128) :
    Read.val_main_v5 (F := Ideal) x0 x1 x4 x5 (ix2 n k) = Cert.Spec.hR A n k := by
  rw [Read.val_main_v5_apply, Read.val_main_v4_apply, Read.val_main_v1_apply, Read.val_main_v3_apply, Read.val_main_v2_apply,
    Read.val_main_call0_v0_apply, Read.val_main_call0_cst_apply]
  show max ((∑ k' : Fin 65, Read.val_main_v0 (F := Ideal) x0 x1 (Read.lidx_main_v1 (ix2 n k) k') * x4 (Read.ridx_main_v1 (ix2 n k) k'))
      + x5 (Read.idx_main_v2 (Read.idx_main_v3 (ix2 n k)))) Cert.Spec.zero
    = max ((∑ j : Fin 65, Cert.Spec.xy A n j * x4 (ix2 j k)) + x5 (ix1 k)) Cert.Spec.zero
  refine congrArg (max · Cert.Spec.zero) (congrArg₂ (· + ·) (Finset.sum_congr rfl fun k' _ => ?_) ?_)
  · have el : Read.lidx_main_v1 (ix2 n k) k' = ix2 n k' := funext fun a => Fin.ext (by
      match a with
      | ⟨0, _⟩ => rfl
      | ⟨1, _⟩ => rfl)
    have er : Read.ridx_main_v1 (ix2 n k) k' = ix2 k' k := funext fun a => Fin.ext (by
      match a with
      | ⟨0, _⟩ => rfl
      | ⟨1, _⟩ => rfl)
    rw [el, er, v0_at x0 x1 x2 x3 x4 x5 x6 x7 x8 x9 x10 x11 x12 x13 x14 x15 x16 x17]
  · exact congrArg x5 (funext fun a => Fin.ext (by
      match a with
      | ⟨0, _⟩ => rfl))

theorem v10_at (n : Fin 1000000) (j : Fin 64) :
    Read.val_main_v10 (F := Ideal) x0 x1 x4 x5 x6 x7 (ix2 n j) = Cert.Spec.zR A n j := by
  rw [Read.val_main_v10_apply, Read.val_main_v9_apply, Read.val_main_v6_apply, Read.val_main_v8_apply, Read.val_main_v7_apply,
    Read.val_main_call1_v0_apply, Read.val_main_call1_cst_apply]
  show max ((∑ k : Fin 128, Read.val_main_v5 (F := Ideal) x0 x1 x4 x5 (Read.lidx_main_v6 (ix2 n j) k) * x6 (Read.ridx_main_v6 (ix2 n j) k))
      + x7 (Read.idx_main_v7 (Read.idx_main_v8 (ix2 n j)))) Cert.Spec.zero
    = max ((∑ k : Fin 128, Cert.Spec.hR A n k * x6 (ix2 k j)) + x7 (ix1 j)) Cert.Spec.zero
  refine congrArg (max · Cert.Spec.zero) (congrArg₂ (· + ·) (Finset.sum_congr rfl fun k _ => ?_) ?_)
  · have el : Read.lidx_main_v6 (ix2 n j) k = ix2 n k := funext fun a => Fin.ext (by
      match a with
      | ⟨0, _⟩ => rfl
      | ⟨1, _⟩ => rfl)
    have er : Read.ridx_main_v6 (ix2 n j) k = ix2 k j := funext fun a => Fin.ext (by
      match a with
      | ⟨0, _⟩ => rfl
      | ⟨1, _⟩ => rfl)
    rw [el, er, v5_at x0 x1 x2 x3 x4 x5 x6 x7 x8 x9 x10 x11 x12 x13 x14 x15 x16 x17]
  · exact congrArg x7 (funext fun a => Fin.ext (by
      match a with
      | ⟨0, _⟩ => rfl))

theorem bucket_sum_congr {idc idc' : Fin 1000000 → BitVec 32} (hid : idc = idc') {f f' : Fin 1000000 → EReal} (hf : f = f')
    (q : Fin 8192) :
    ∑ n ∈ Finset.univ.filter (fun n => Cert.Spec.hit (idc n) q), f n
      = ∑ n ∈ Finset.univ.filter (fun n => Cert.Spec.hit (idc' n) q), f' n := by
  subst hid; subst hf; rfl

theorem v12_at (xi : S1000000.Idx → BitVec 32) (n : Fin 1000000) :
    Read.val_main_v12 (F := Ideal) xi (ix2 n (0 : Fin 1)) = xi (ix1 n) := by
  rw [Read.val_main_v12_apply]
  exact congrArg xi (funext fun a => Fin.ext (by
    match a with
    | ⟨0, _⟩ => rfl))

theorem v13_at (xi : S1000000.Idx → BitVec 32) (q : Fin 8192) (j : Fin 64) :
    Read.val_main_v13 (F := Ideal) x0 x1 xi x4 x5 x6 x7 (ix2 q j)
      = Cert.Spec.segSum (Cert.Spec.zR A) (fun n => xi (ix1 n)) q j := by
  unfold Read.val_main_v13
  refine (scatter2_apply _ _ _ q j).trans ?_
  rw [Read.val_main_v11_apply, Read.val_main_cst_apply]
  unfold Cert.Spec.segSum
  refine congrArg (Cert.Spec.zero + ·) ?_
  exact bucket_sum_congr (idc := fun n => Read.val_main_v12 (F := Ideal) xi (ix2 n (0 : Fin 1))) (idc' := fun n => xi (ix1 n))
    (funext fun n => v12_at xi n)
    (f := fun n => Read.val_main_v10 (F := Ideal) x0 x1 x4 x5 x6 x7 (ix2 n j)) (f' := fun n => Cert.Spec.zR A n j)
    (funext fun n => v10_at x0 x1 x2 x3 x4 x5 x6 x7 x8 x9 x10 x11 x12 x13 x14 x15 x16 x17 n j) q

theorem v17_at (xi : S1000000.Idx → BitVec 32) (q : Fin 8192) :
    Read.val_main_v17 (F := Ideal) xi (ix1 q) = Cert.Spec.segCnt (fun n => xi (ix1 n)) q := by
  unfold Read.val_main_v17
  refine (scatter1_apply _ _ _ q).trans ?_
  rw [Read.val_main_v15_apply, Read.val_main_cst_1_apply]
  unfold Cert.Spec.segCnt
  refine congrArg (Cert.Spec.zero + ·) ?_
  exact bucket_sum_congr (idc := fun n => Read.val_main_v16 (F := Ideal) xi (ix2 n (0 : Fin 1))) (idc' := fun n => xi (ix1 n))
    (funext fun n => v12_at xi n)
    (f := fun n => Read.val_main_v14 (F := Ideal) (ix1 n)) (f' := fun _ => Cert.Spec.one)
    (funext fun n => by rw [Read.val_main_v14_apply, Read.val_main_cst_0_apply]; rfl) q

theorem v22_at (xi : S1000000.Idx → BitVec 32) (q : Fin 8192) (j : Fin 64) :
    Read.val_main_v22 (F := Ideal) x0 x1 xi x4 x5 x6 x7 (ix2 q j)
      = Cert.Spec.segMean (Cert.Spec.zR A) (fun n => xi (ix1 n)) q j := by
  rw [Read.val_main_v22_apply, Read.val_main_v21_apply, Read.val_main_v20_apply, Read.val_main_v19_apply, Read.val_main_v18_apply,
    Read.val_main_cst_2_apply]
  have e : Read.idx_main_v20 (Read.idx_main_v21 (ix2 q j)) = ix1 q := funext fun a => Fin.ext (by
    match a with
    | ⟨0, _⟩ => rfl)
  rw [e, v13_at x0 x1 x2 x3 x4 x5 x6 x7 x8 x9 x10 x11 x12 x13 x14 x15 x16 x17, v17_at]
  rfl

theorem v26_at (xi : S1000000.Idx → BitVec 32) (W : S64x16.Idx → EReal) (b : S16.Idx → EReal) (q : Fin 8192) (d : Fin 16) :
    Read.val_main_v26 (F := Ideal) x0 x1 xi x4 x5 x6 x7 W b (ix2 q d)
      = Cert.Spec.affR (Cert.Spec.segMean (Cert.Spec.zR A) (fun n => xi (ix1 n))) (fun j d => W (ix2 j d)) (fun d => b (ix1 d)) q d := by
  rw [Read.val_main_v26_apply, Read.val_main_v23_apply, Read.val_main_v25_apply, Read.val_main_v24_apply]
  show (∑ k : Fin 64, Read.val_main_v22 (F := Ideal) x0 x1 xi x4 x5 x6 x7 (Read.lidx_main_v23 (ix2 q d) k) * W (Read.ridx_main_v23 (ix2 q d) k))
      + b (Read.idx_main_v24 (Read.idx_main_v25 (ix2 q d)))
    = (∑ j : Fin 64, Cert.Spec.segMean (Cert.Spec.zR A) (fun n => xi (ix1 n)) q j * W (ix2 j d)) + b (ix1 d)
  refine congrArg₂ (· + ·) (Finset.sum_congr rfl fun k _ => ?_) ?_
  · have el : Read.lidx_main_v23 (ix2 q d) k = ix2 q k := funext fun a => Fin.ext (by
      match a with
      | ⟨0, _⟩ => rfl
      | ⟨1, _⟩ => rfl)
    have er : Read.ridx_main_v23 (ix2 q d) k = ix2 k d := funext fun a => Fin.ext (by
      match a with
      | ⟨0, _⟩ => rfl
      | ⟨1, _⟩ => rfl)
    rw [el, er, v22_at x0 x1 x2 x3 x4 x5 x6 x7 x8 x9 x10 x11 x12 x13 x14 x15 x16 x17]
  · exact congrArg b (funext fun a => Fin.ext (by
      match a with
      | ⟨0, _⟩ => rfl))

theorem v35_at (xi : S1000000.Idx → BitVec 32) (W : S64x16.Idx → EReal) (b : S16.Idx → EReal) (W' : S64x16.Idx → EReal)
    (b' : S16.Idx → EReal) (e : S8192x16.Idx → EReal) (q : Fin 8192) (d : Fin 16) :
    Read.val_main_v35 (F := Ideal) x0 x1 xi x4 x5 x6 x7 W b W' b' e (ix2 q d)
      = Cert.Spec.sample
          (Cert.Spec.affR (Cert.Spec.segMean (Cert.Spec.zR A) (fun n => xi (ix1 n))) (fun j d => W (ix2 j d)) (fun d => b (ix1 d)))
          (Cert.Spec.affR (Cert.Spec.segMean (Cert.Spec.zR A) (fun n => xi (ix1 n))) (fun j d => W' (ix2 j d)) (fun d => b' (ix1 d)))
          (fun q d => e (ix2 q d)) q d := by
  rw [Read.val_main_v35_apply, Read.val_main_v34_apply, Read.val_main_v33_apply, Read.val_main_v32_apply, Read.val_main_v31_apply,
    Read.val_main_cst_3_apply]
  have e30 : Read.val_main_v30 (F := Ideal) x0 x1 xi x4 x5 x6 x7 W' b' (ix2 q d)
      = Read.val_main_v26 (F := Ideal) x0 x1 xi x4 x5 x6 x7 W' b' (ix2 q d) := rfl
  rw [e30, v26_at x0 x1 x2 x3 x4 x5 x6 x7 x8 x9 x10 x11 x12 x13 x14 x15 x16 x17, v26_at x0 x1 x2 x3 x4 x5 x6 x7 x8 x9 x10 x11 x12 x13 x14 x15 x16 x17]
  simp only [Ideal.addf_def, Ideal.mulf_def, Ideal.hostUnary_exp_def, Ideal.ofBits_def]
  rfl

theorem v30_eq (xi : S1000000.Idx → BitVec 32) (W : S64x16.Idx → EReal) (b : S16.Idx → EReal) :
    Read.val_main_v30 (F := Ideal) x0 x1 xi x4 x5 x6 x7 W b = Read.val_main_v26 (F := Ideal) x0 x1 xi x4 x5 x6 x7 W b := rfl
theorem v51_eq (xi : S1000000.Idx → BitVec 32) (W : S64x16.Idx → EReal) (b : S16.Idx → EReal) :
    Read.val_main_v51 (F := Ideal) x0 x1 xi x4 x5 x6 x7 W b = Read.val_main_v26 (F := Ideal) x0 x1 xi x4 x5 x6 x7 W b := rfl
theorem v55_eq (xi : S1000000.Idx → BitVec 32) (W : S64x16.Idx → EReal) (b : S16.Idx → EReal) :
    Read.val_main_v55 (F := Ideal) x0 x1 xi x4 x5 x6 x7 W b = Read.val_main_v26 (F := Ideal) x0 x1 xi x4 x5 x6 x7 W b := rfl
theorem v60_eq (xi : S1000000.Idx → BitVec 32) (W : S64x16.Idx → EReal) (b : S16.Idx → EReal) (W' : S64x16.Idx → EReal)
    (b' : S16.Idx → EReal) (e : S8192x16.Idx → EReal) :
    Read.val_main_v60 (F := Ideal) x0 x1 xi x4 x5 x6 x7 W b W' b' e = Read.val_main_v35 (F := Ideal) x0 x1 xi x4 x5 x6 x7 W b W' b' e := rfl

theorem v67_at (a : Fin 6) (q : Fin 8192) (d : Fin 16) :
    Read.val_main_v67 (F := Ideal) x0 x1 x2 x3 x4 x5 x6 x7 x8 x9 x10 x11 x12 x13 x14 x15 x16 x17 (ix3 a q d) = Cert.Spec.Gref A a q d := by
  unfold Read.val_main_v67
  refine (concat6_at _ _ _ _ _ _ _ a q d).trans ?_
  match a with
  | ⟨0, _⟩ =>
    have e : Read.idx_main_v61 (ix3 (0 : Fin 1) q d) = ix2 q d := funext fun b => Fin.ext (by
      match b with
      | ⟨0, _⟩ => rfl
      | ⟨1, _⟩ => rfl)
    show Read.val_main_v61 (F := Ideal) x0 x1 x2 x4 x5 x6 x7 x8 x9 (ix3 (0 : Fin 1) q d) = _
    rw [Read.val_main_v61_apply, e, v26_at x0 x1 x2 x3 x4 x5 x6 x7 x8 x9 x10 x11 x12 x13 x14 x15 x16 x17]
    rfl
  | ⟨1, _⟩ =>
    have e : Read.idx_main_v62 (ix3 (0 : Fin 1) q d) = ix2 q d := funext fun b => Fin.ext (by
      match b with
      | ⟨0, _⟩ => rfl
      | ⟨1, _⟩ => rfl)
    show Read.val_main_v62 (F := Ideal) x0 x1 x3 x4 x5 x6 x7 x12 x13 (ix3 (0 : Fin 1) q d) = _
    rw [Read.val_main_v62_apply, e, v51_eq, v26_at x0 x1 x2 x3 x4 x5 x6 x7 x8 x9 x10 x11 x12 x13 x14 x15 x16 x17]
    rfl
  | ⟨2, _⟩ =>
    have e : Read.idx_main_v63 (ix3 (0 : Fin 1) q d) = ix2 q d := funext fun b => Fin.ext (by
      match b with
      | ⟨0, _⟩ => rfl
      | ⟨1, _⟩ => rfl)
    show Read.val_main_v63 (F := Ideal) x0 x1 x2 x4 x5 x6 x7 x10 x11 (ix3 (0 : Fin 1) q d) = _
    rw [Read.val_main_v63_apply, e, v30_eq, v26_at x0 x1 x2 x3 x4 x5 x6 x7 x8 x9 x10 x11 x12 x13 x14 x15 x16 x17]
    rfl
  | ⟨3, _⟩ =>
    have e : Read.idx_main_v64 (ix3 (0 : Fin 1) q d) = ix2 q d := funext fun b => Fin.ext (by
      match b with
      | ⟨0, _⟩ => rfl
      | ⟨1, _⟩ => rfl)
    show Read.val_main_v64 (F := Ideal) x0 x1 x3 x4 x5 x6 x7 x14 x15 (ix3 (0 : Fin 1) q d) = _
    rw [Read.val_main_v64_apply, e, v55_eq, v26_at x0 x1 x2 x3 x4 x5 x6 x7 x8 x9 x10 x11 x12 x13 x14 x15 x16 x17]
    rfl
  | ⟨4, _⟩ =>
    have e : Read.idx_main_v65 (ix3 (0 : Fin 1) q d) = ix2 q d := funext fun b => Fin.ext (by
      match b with
      | ⟨0, _⟩ => rfl
      | ⟨1, _⟩ => rfl)
    show Read.val_main_v65 (F := Ideal) x0 x1 x2 x4 x5 x6 x7 x8 x9 x10 x11 x16 (ix3 (0 : Fin 1) q d) = _
    rw [Read.val_main_v65_apply, e, v35_at x0 x1 x2 x3 x4 x5 x6 x7 x8 x9 x10 x11 x12 x13 x14 x15 x16 x17]
    rfl
  | ⟨k + 5, hk⟩ =>
    obtain rfl : k = 0 := by omega
    have e : Read.idx_main_v66 (ix3 (0 : Fin 1) q d) = ix2 q d := funext fun b => Fin.ext (by
      match b with
      | ⟨0, _⟩ => rfl
      | ⟨1, _⟩ => rfl)
    show Read.val_main_v66 (F := Ideal) x0 x1 x3 x4 x5 x6 x7 x12 x13 x14 x15 x17 (ix3 (0 : Fin 1) q d) = _
    rw [Read.val_main_v66_apply, e, v60_eq, v35_at x0 x1 x2 x3 x4 x5 x6 x7 x8 x9 x10 x11 x12 x13 x14 x15 x16 x17]
    rfl

end Stages

open Idealize.ShloMosaic.TcCoe Idealize.SL.Sem in
theorem ref_value (m : (ℓ : Loc nD τ sig) → Buf (Elt Ideal) ℓ) (c : Dev nD) :
    Cert.ReferenceIdeal.Value.res_main_v67 (F := Ideal) m c
      = Cert.Spec.toArr (Cert.Spec.Gref (Cert.Spec.mkArgs
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17)))) := by
  rw [Read.val_main_v67_eq]
  funext i
  obtain ⟨a, q, d, rfl⟩ : ∃ (a : Fin 6) (q : Fin 8192) (d : Fin 16), i = ix3 a q d := ⟨i 0, i 1, i 2, eq_ix3 i⟩
  exact v67_at _ _ _ _ _ _ _ _ _ _ _ _ _ _ _ _ _ _ a q d

end Cert.RefValue

end
-- ==== Proof.LibReal.lean ====
/-
  Sums, products and finite sums of real numbers are real, and the coercion from ℝ commutes with finite sums.
-/
import Idealize.ShloMosaic.PureOps.Ideal
import Idealize.ShloMosaic.PureOps.Ideal.Laws
import Mathlib.Data.EReal.Inv
import Mathlib.Algebra.BigOperators.Group.Finset.Basic
import Mathlib.Algebra.Order.BigOperators.Group.Finset

noncomputable section

namespace Cert.Lib

open Idealize.ShloMosaic
open scoped BigOperators

theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem nonneg_real_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨x, hx0, hx⟩ := h a (Finset.mem_insert_self a s)
    obtain ⟨y, hy0, hy⟩ := ih fun i hi => h i (Finset.mem_insert_of_mem hi)
    exact ⟨x + y, add_nonneg hx0 hy0, by rw [Finset.sum_insert ha, hx, hy, EReal.coe_add]⟩

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

end Cert.Lib

end
-- ==== Proof.Algebra.lean ====
/-
  For real arguments the kernel's arrangement equals the reference's: x − x = 0, the blocks run through every row
  once, and division by the positive count commutes with the finite sums over rows and features.
-/
import proofs.«418107_j79233556677137_3_alg».proof.Proof.Spec
import proofs.«418107_j79233556677137_3_alg».proof.Proof.LibReal
import Mathlib.Algebra.BigOperators.Fin
import Mathlib.Algebra.BigOperators.Ring.Finset
import Mathlib.Data.Fintype.BigOperators
import Mathlib.Order.MinMax
import Mathlib.Tactic.Ring
import Mathlib.Tactic.Linarith

noncomputable section

namespace Cert.Spec

open Idealize.ShloMosaic
open Cert.Lib
open scoped BigOperators

theorem zero_eq : zero = (0 : EReal) := by
  show Ideal.ofBits .f32 0x00000000#32 = 0
  rw [ofBits_zero, EReal.coe_zero]

theorem one_eq : one = ((1 : ℝ) : EReal) := ofBits_one

theorem zero_real : ∃ r : ℝ, zero = (r : EReal) := ⟨0, ofBits_zero⟩

theorem one_real : ∃ r : ℝ, one = (r : EReal) := ⟨1, ofBits_one⟩

theorem coe_max (a b : ℝ) : max (a : EReal) (b : EReal) = ((max a b : ℝ) : EReal) :=
  (EReal.coe_strictMono.monotone.map_max).symm

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy; exact ⟨max a b, coe_max a b⟩

theorem xy_castSucc (A : Args) (n : Fin 1000000) (j : Fin 64) : xy A n (Fin.castSucc j) = A.X n j := by
  unfold xy
  rw [dif_pos (show (Fin.castSucc j).val < 64 from j.isLt)]
  rfl

theorem xy_last (A : Args) (n : Fin 1000000) : xy A n (Fin.last 64) = A.y n := by
  unfold xy
  rw [dif_neg (show ¬ (Fin.last 64).val < 64 from Nat.lt_irrefl 64)]

theorem hK_eq_hR (A : Args) : hK A = hR A := by
  funext n k
  have h : (∑ j : Fin 65, xy A n j * A.W0 j k)
      = (∑ j : Fin 64, A.X n j * A.W0 (Fin.castSucc j) k) + A.y n * A.W0 (Fin.last 64) k := by
    rw [Fin.sum_univ_castSucc (n := 64), xy_last]
    simp only [xy_castSucc]
  unfold hK hR
  rw [h]

theorem zK_eq_zR (A : Args) : zK A = zR A := by
  funext n j
  unfold zK zR
  rw [hK_eq_hR]

theorem xy_real (A : Args) (hA : A.Real) (n : Fin 1000000) (j : Fin 65) : ∃ r : ℝ, xy A n j = (r : EReal) := by
  unfold xy
  split
  · exact hA.X _ _
  · exact hA.y _

theorem hR_real (A : Args) (hA : A.Real) (n : Fin 1000000) (k : Fin 128) : ∃ r : ℝ, hR A n k = (r : EReal) :=
  real_max (real_add (real_sum _ _ fun j _ => real_mul (xy_real A hA n j) (hA.W0 j k)) (hA.b0 k)) zero_real

theorem zR_real (A : Args) (hA : A.Real) (n : Fin 1000000) (j : Fin 64) : ∃ r : ℝ, zR A n j = (r : EReal) :=
  real_max (real_add (real_sum _ _ fun k _ => real_mul (hR_real A hA n k) (hA.W1 k j)) (hA.b1 j)) zero_real

section Proj
variable (z : Fin 1000000 → Fin 64 → EReal) (Wm Wv : Fin 64 → Fin 16 → EReal)

theorem wmv_lo (j : Fin 64) (d : Fin 16) : wmv Wm Wv j ⟨d.val, by omega⟩ = Wm j d := by
  unfold wmv
  rw [dif_pos (show (⟨d.val, by omega⟩ : Fin 32).val < 16 from d.isLt)]

theorem wmv_hi (j : Fin 64) (d : Fin 16) : wmv Wm Wv j ⟨16 + d.val, by omega⟩ = Wv j d := by
  unfold wmv
  rw [dif_neg (show ¬ (⟨16 + d.val, by omega⟩ : Fin 32).val < 16 from by simp)]
  congr 1
  exact Fin.ext (by simp)

theorem wmv_real (hWm : ∀ j d, ∃ r : ℝ, Wm j d = (r : EReal)) (hWv : ∀ j d, ∃ r : ℝ, Wv j d = (r : EReal))
    (j : Fin 64) (k : Fin 32) : ∃ r : ℝ, wmv Wm Wv j k = (r : EReal) := by
  unfold wmv
  split
  · exact hWm _ _
  · exact hWv _ _

theorem projK_castSucc (n : Fin 1000000) (k : Fin 32) :
    projK z Wm Wv n (Fin.castSucc k) = ∑ j : Fin 64, z n j * wmv Wm Wv j k := by
  unfold projK
  rw [dif_pos (show (Fin.castSucc k).val < 32 from k.isLt)]
  rfl

theorem projK_last (n : Fin 1000000) : projK z Wm Wv n (Fin.last 32) = one := by
  unfold projK
  rw [dif_neg (show ¬ (Fin.last 32).val < 32 from Nat.lt_irrefl 32)]

theorem projK_real (hz : ∀ n j, ∃ r : ℝ, z n j = (r : EReal))
    (hWm : ∀ j d, ∃ r : ℝ, Wm j d = (r : EReal)) (hWv : ∀ j d, ∃ r : ℝ, Wv j d = (r : EReal))
    (n : Fin 1000000) (k : Fin 33) : ∃ r : ℝ, projK z Wm Wv n k = (r : EReal) := by
  unfold projK
  split
  · exact real_sum _ _ fun j _ => real_mul (hz n j) (wmv_real Wm Wv hWm hWv j _)
  · exact one_real

end Proj

abbrev bucket (id : Fin 1000000 → BitVec 32) (q : Fin 8192) : Finset (Fin 1000000) :=
  Finset.univ.filter (fun n => hit (id n) q)

theorem mul_oh (x : EReal) (id : BitVec 32) (q : Fin 8192) : x * oh id q = if hit id q then x else 0 := by
  unfold oh
  split
  · rw [EReal.coe_one, mul_one]
  · rw [EReal.coe_zero, mul_zero]

def rowEquiv : Fin 2 × Fin 125 × Fin 4000 ≃ Fin 1000000 where
  toFun p := row p.1 p.2.1 p.2.2
  invFun n := (⟨n.val / 500000, by omega⟩, ⟨n.val / 4000 % 125, by omega⟩, ⟨n.val % 4000, by omega⟩)
  left_inv := by
    rintro ⟨c, i, r⟩
    refine Prod.ext (Fin.ext ?_) (Prod.ext (Fin.ext ?_) (Fin.ext ?_))
    · show ((c.val * 125 + i.val) * 4000 + r.val) / 500000 = c.val
      omega
    · show ((c.val * 125 + i.val) * 4000 + r.val) / 4000 % 125 = i.val
      omega
    · show ((c.val * 125 + i.val) * 4000 + r.val) % 4000 = r.val
      omega
  right_inv := by
    intro n
    refine Fin.ext ?_
    show (n.val / 500000 * 125 + n.val / 4000 % 125) * 4000 + n.val % 4000 = n.val
    omega

theorem sum_rows (F : Fin 1000000 → EReal) :
    ∑ n, F n = ∑ c : Fin 2, ∑ i : Fin 125, ∑ r : Fin 4000, F (row c i r) := by
  rw [← rowEquiv.sum_comp F, Fintype.sum_prod_type]
  refine Finset.sum_congr rfl fun c _ => ?_
  rw [Fintype.sum_prod_type]
  rfl

section Acc
variable (P : Fin 1000000 → Fin 33 → EReal) (id : Fin 1000000 → BitVec 32)

theorem partK_eq (hP : ∀ n k, ∃ r : ℝ, P n k = (r : EReal)) (c : Fin 2) (i : Fin 125) (k : Fin 33) (q : Fin 8192) :
    partK P id c i k q = ∑ r : Fin 4000, if hit (id (row c i r)) q then P (row c i r) k else 0 := by
  have h0 : ∀ r : Fin 4000, (P (row c i r) k - P (row c i r) k) * oh (id (row c i r)) q = 0 := by
    intro r
    obtain ⟨a, ha⟩ := hP (row c i r) k
    rw [ha, ← EReal.coe_sub, sub_self, EReal.coe_zero, zero_mul]
  unfold partK
  simp only [h0, Finset.sum_const_zero, add_zero, mul_oh]

theorem accK_range (c : Fin 2) (m : ℕ) (k : Fin 33) (q : Fin 8192) :
    accK P id c m k q
      = zero + ∑ i ∈ Finset.range m, (if h : i < 125 then partK P id c ⟨i, h⟩ k q else 0) := by
  induction m with
  | zero =>
    show zero = zero + ∑ i ∈ Finset.range 0, (if h : i < 125 then partK P id c ⟨i, h⟩ k q else 0)
    rw [Finset.range_zero, Finset.sum_empty, add_zero]
  | succ m ih =>
    rw [Finset.sum_range_succ, ← add_assoc, ← ih]
    rfl

theorem accK_full (c : Fin 2) (k : Fin 33) (q : Fin 8192) :
    accK P id c 125 k q = ∑ i : Fin 125, partK P id c i k q := by
  rw [accK_range, zero_eq, zero_add, Finset.sum_range]
  refine Finset.sum_congr rfl fun i _ => ?_
  rw [dif_pos i.isLt]

theorem totK_eq (hP : ∀ n k, ∃ r : ℝ, P n k = (r : EReal)) (k : Fin 33) (q : Fin 8192) :
    totK P id k q = ∑ n ∈ bucket id q, P n k := by
  unfold totK
  rw [accK_full, accK_full, Finset.sum_filter,
    sum_rows (fun n => if hit (id n) q then P n k else 0), Fin.sum_univ_two]
  simp only [partK_eq P id hP]

end Acc

theorem count_real (s : Finset (Fin 1000000)) : ∃ r : ℝ, 0 ≤ r ∧ ∑ _n ∈ s, one = (r : EReal) :=
  nonneg_real_sum s _ fun _ _ => ⟨1, zero_le_one, ofBits_one⟩

theorem div_sum_comm {ι J : Type} [Fintype J] (s : Finset ι) (Z : ι → J → ℝ) (w : J → ℝ) (c : ℝ) (hc : c ≠ 0) :
    Ideal.div (∑ n ∈ s, ∑ j, (Z n j : EReal) * (w j : EReal)) (c : EReal)
      = ∑ j, Ideal.div (∑ n ∈ s, (Z n j : EReal)) (c : EReal) * (w j : EReal) := by
  have hL : (∑ n ∈ s, ∑ j, (Z n j : EReal) * (w j : EReal)) = ((∑ n ∈ s, ∑ j, Z n j * w j : ℝ) : EReal) := by
    rw [coe_sum]
    refine Finset.sum_congr rfl fun n _ => ?_
    rw [coe_sum]
    refine Finset.sum_congr rfl fun j _ => ?_
    rw [EReal.coe_mul]
  have hR : ∀ j, Ideal.div (∑ n ∈ s, (Z n j : EReal)) (c : EReal) * (w j : EReal)
      = (((∑ n ∈ s, Z n j) * (1 / c) * w j : ℝ) : EReal) := by
    intro j
    rw [Ideal.div_coe hc, ← coe_sum, ← EReal.coe_mul, ← EReal.coe_mul]
  rw [hL, Ideal.div_coe hc, ← EReal.coe_mul, Finset.sum_congr rfl (fun j _ => hR j), ← coe_sum]
  congr 1
  rw [Finset.sum_comm, Finset.sum_mul]
  refine Finset.sum_congr rfl fun j _ => ?_
  rw [← Finset.sum_mul]
  ring

theorem btK_eq (P : Fin 1000000 → Fin 33 → EReal) (id : Fin 1000000 → BitVec 32)
    (Z : Fin 1000000 → Fin 64 → ℝ) (w : Fin 64 → ℝ) (k : Fin 32) (q : Fin 8192)
    (hP : ∀ n k, ∃ r : ℝ, P n k = (r : EReal))
    (hPk : ∀ n, P n (Fin.castSucc k) = ∑ j, (Z n j : EReal) * (w j : EReal))
    (hP32 : ∀ n, P n (Fin.last 32) = one) :
    btK P id k q = ∑ j, segMean (fun n j => (Z n j : EReal)) id q j * (w j : EReal) := by
  have hs1 : totK P id (Fin.castSucc k) q = ∑ n ∈ bucket id q, ∑ j, (Z n j : EReal) * (w j : EReal) := by
    rw [totK_eq P id hP]
    exact Finset.sum_congr rfl fun n _ => hPk n
  have hs2 : totK P id (Fin.last 32) q = ∑ _n ∈ bucket id q, one := by
    rw [totK_eq P id hP]
    exact Finset.sum_congr rfl fun n _ => hP32 n
  obtain ⟨r, _, hr⟩ := count_real (bucket id q)
  have hc : max (r : EReal) one = ((max r 1 : ℝ) : EReal) := by rw [one_eq, coe_max]
  have hc0 : max r 1 ≠ 0 := by
    have := le_max_right r 1
    intro h
    rw [h] at this
    linarith
  show Ideal.div (totK P id (Fin.castSucc k) q) (max (totK P id (Fin.last 32) q) one)
    = ∑ j, Ideal.div (zero + ∑ n ∈ bucket id q, (Z n j : EReal)) (max (zero + ∑ _n ∈ bucket id q, one) one)
        * (w j : EReal)
  rw [hs1, hs2, hr, zero_eq]
  simp only [zero_add]
  rw [hc]
  exact div_sum_comm _ Z w _ hc0

theorem btK_proj (z : Fin 1000000 → Fin 64 → EReal) (Wm Wv : Fin 64 → Fin 16 → EReal)
    (id : Fin 1000000 → BitVec 32)
    (hz : ∀ n j, ∃ r : ℝ, z n j = (r : EReal))
    (hWm : ∀ j d, ∃ r : ℝ, Wm j d = (r : EReal)) (hWv : ∀ j d, ∃ r : ℝ, Wv j d = (r : EReal))
    (k : Fin 32) (W : Fin 64 → EReal) (hW : ∀ j, wmv Wm Wv j k = W j) (q : Fin 8192) :
    btK (projK z Wm Wv) id k q = ∑ j, segMean z id q j * W j := by
  have hPr := projK_real z Wm Wv hz hWm hWv
  have hWr : ∀ j, ∃ r : ℝ, W j = (r : EReal) := fun j => hW j ▸ wmv_real Wm Wv hWm hWv j k
  choose Z hZ using hz
  obtain rfl : z = fun n j => (Z n j : EReal) := funext fun n => funext fun j => hZ n j
  choose w hw using hWr
  obtain rfl : W = fun j => (w j : EReal) := funext hw
  exact btK_eq (projK _ Wm Wv) id Z w k q hPr
    (fun n => by
      rw [projK_castSucc]
      exact Finset.sum_congr rfl fun j _ => by rw [hW])
    (fun n => projK_last _ Wm Wv n)

theorem meanK_eq (z : Fin 1000000 → Fin 64 → EReal) (Wm Wv : Fin 64 → Fin 16 → EReal)
    (id : Fin 1000000 → BitVec 32) (b : Fin 16 → EReal)
    (hz : ∀ n j, ∃ r : ℝ, z n j = (r : EReal))
    (hWm : ∀ j d, ∃ r : ℝ, Wm j d = (r : EReal)) (hWv : ∀ j d, ∃ r : ℝ, Wv j d = (r : EReal)) :
    meanK (projK z Wm Wv) id b = affR (segMean z id) Wm b := by
  funext q d
  unfold meanK affR
  rw [btK_proj z Wm Wv id hz hWm hWv _ (fun j => Wm j d) (fun j => wmv_lo Wm Wv j d) q]

theorem lvK_eq (z : Fin 1000000 → Fin 64 → EReal) (Wm Wv : Fin 64 → Fin 16 → EReal)
    (id : Fin 1000000 → BitVec 32) (b : Fin 16 → EReal)
    (hz : ∀ n j, ∃ r : ℝ, z n j = (r : EReal))
    (hWm : ∀ j d, ∃ r : ℝ, Wm j d = (r : EReal)) (hWv : ∀ j d, ∃ r : ℝ, Wv j d = (r : EReal)) :
    lvK (projK z Wm Wv) id b = affR (segMean z id) Wv b := by
  funext q d
  unfold lvK affR
  rw [btK_proj z Wm Wv id hz hWm hWv _ (fun j => Wv j d) (fun j => wmv_hi Wm Wv j d) q]

theorem Gker_eq_Gref (A : Args) (hA : A.Real) : Gker A = Gref A := by
  have hzr := zR_real A hA
  have m0 : meanK (P0 A) A.id0 A.bm0 = mean0R A := by
    unfold P0 mean0R
    rw [zK_eq_zR]
    exact meanK_eq _ _ _ _ _ hzr hA.Wm0 hA.Wv0
  have m1 : meanK (P1 A) A.id1 A.bm1 = mean1R A := by
    unfold P1 mean1R
    rw [zK_eq_zR]
    exact meanK_eq _ _ _ _ _ hzr hA.Wm1 hA.Wv1
  have l0 : lvK (P0 A) A.id0 A.bv0 = lv0R A := by
    unfold P0 lv0R
    rw [zK_eq_zR]
    exact lvK_eq _ _ _ _ _ hzr hA.Wm0 hA.Wv0
  have l1 : lvK (P1 A) A.id1 A.bv1 = lv1R A := by
    unfold P1 lv1R
    rw [zK_eq_zR]
    exact lvK_eq _ _ _ _ _ hzr hA.Wm1 hA.Wv1
  funext a q d
  match a with
  | ⟨0, _⟩ => exact congrFun (congrFun m0 q) d
  | ⟨1, _⟩ => exact congrFun (congrFun m1 q) d
  | ⟨2, _⟩ => exact congrFun (congrFun l0 q) d
  | ⟨3, _⟩ => exact congrFun (congrFun l1 q) d
  | ⟨4, _⟩ =>
    show sample (meanK (P0 A) A.id0 A.bm0) (lvK (P0 A) A.id0 A.bv0) A.eps0 q d
      = sample (mean0R A) (lv0R A) A.eps0 q d
    rw [m0, l0]
  | ⟨_ + 5, _⟩ =>
    show sample (meanK (P1 A) A.id1 A.bm1) (lvK (P1 A) A.id1 A.bv1) A.eps1 q d
      = sample (mean1R A) (lv1R A) A.eps1 q d
    rw [m1, l1]

end Cert.Spec

end
-- ==== Proof.Finite.lean ====
/-
  An extended real whose absolute value lies strictly below ⊤ is a real number; so every finite argument is real-valued.
-/
import proofs.«418107_j79233556677137_3_alg».proof.Pre_finite_inputs
import proofs.«418107_j79233556677137_3_alg».proof.Proof.Spec
import proofs.«418107_j79233556677137_3_alg».proof.Proof.SpecArgs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx
open Cert.Pre_finite_inputs

instance : Subsingleton S_.Idx := ⟨fun _ _ => funext fun d => d.elim0⟩

theorem real_of_abs_lt_top (x : EReal)
    (h : FloatOps.cmpf (F := Ideal) (φ := .f32) .olt (FloatOps.hostAbsf x)
          (FloatOps.ofBits .f32 0x7F800000#32) = 1#1) :
    ∃ r : ℝ, x = (r : EReal) := by
  induction x using EReal.rec with
  | bot =>
    exfalso
    have h' : Ideal.cmp .olt (max (⊥ : EReal) (-⊥)) (Ideal.ofBits .f32 0x7F800000#32) = 1#1 := h
    simp [Ideal.cmp, Ideal.ofBits, Ideal.ieee] at h'
  | top =>
    exfalso
    have h' : Ideal.cmp .olt (max (⊤ : EReal) (-⊤)) (Ideal.ofBits .f32 0x7F800000#32) = 1#1 := h
    simp [Ideal.cmp, Ideal.ofBits, Ideal.ieee] at h'
  | coe r => exact ⟨r, rfl⟩

theorem entries_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant S_ .f32 0x7F800000#32)))
          (constantI S_ 1 1#1) hr hu ix0 = 1#1) (i : s.Idx) :
    ∃ r : ℝ, x i = (r : EReal) :=
  real_of_abs_lt_top (x i) (Host.reduce_andi_all _ _ hr hu ix0 e i)

theorem args_real [Facts]
    (a0 : FVec Ideal S1000000x64 .f32) (a1 : FVec Ideal S1000000x1 .f32)
    (a2 a3 : IVec S1000000 32) (a4 : FVec Ideal S65x128 .f32) (a5 : FVec Ideal S128 .f32)
    (a6 : FVec Ideal S128x64 .f32) (a7 : FVec Ideal S64 .f32)
    (a8 : FVec Ideal S64x16 .f32) (a9 : FVec Ideal S16 .f32)
    (a10 : FVec Ideal S64x16 .f32) (a11 : FVec Ideal S16 .f32)
    (a12 : FVec Ideal S64x16 .f32) (a13 : FVec Ideal S16 .f32)
    (a14 : FVec Ideal S64x16 .f32) (a15 : FVec Ideal S16 .f32)
    (a16 a17 : FVec Ideal S8192x16 .f32)
    (h : fn (F := Ideal) a0 a1 a2 a3 a4 a5 a6 a7 a8 a9 a10 a11 a12 a13 a14 a15 a16 a17 = (fun _ => 1#1)) :
    (Cert.Spec.mkArgs a0 a1 a2 a3 a4 a5 a6 a7 a8 a9 a10 a11 a12 a13 a14 a15 a16 a17).Real := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨⟨e0, e1⟩, e4⟩, e5⟩, e6⟩, e7⟩, e8⟩, e9⟩, e10⟩, e11⟩, e12⟩, e13⟩, e14⟩, e15⟩, e16⟩, e17⟩ := h0
  exact
    { X := fun n j => entries_real _ _ _ a0 e0 (ix2 n j)
      y := fun n => entries_real _ _ _ a1 e1 (ix2 n (0 : Fin 1))
      W0 := fun j k => entries_real _ _ _ a4 e4 (ix2 j k)
      b0 := fun k => entries_real _ _ _ a5 e5 (ix1 k)
      W1 := fun k j => entries_real _ _ _ a6 e6 (ix2 k j)
      b1 := fun j => entries_real _ _ _ a7 e7 (ix1 j)
      Wm0 := fun j d => entries_real _ _ _ a8 e8 (ix2 j d)
      bm0 := fun d => entries_real _ _ _ a9 e9 (ix1 d)
      Wv0 := fun j d => entries_real _ _ _ a10 e10 (ix2 j d)
      bv0 := fun d => entries_real _ _ _ a11 e11 (ix1 d)
      Wm1 := fun j d => entries_real _ _ _ a12 e12 (ix2 j d)
      bm1 := fun d => entries_real _ _ _ a13 e13 (ix1 d)
      Wv1 := fun j d => entries_real _ _ _ a14 e14 (ix2 j d)
      bv1 := fun d => entries_real _ _ _ a15 e15 (ix1 d)
      eps0 := fun q d => entries_real _ _ _ a16 e16 (ix2 q d)
      eps1 := fun q d => entries_real _ _ _ a17 e17 (ix2 q d) }

end Cert.Finite

end
-- ==== Proof.lean ====
/-
  A one-hot segment-mean kernel against a segment-sum reference: both programs end at the reference arrangement of
  the arguments, the kernel's arrangement being equal to it when every float argument is a real number.
-/
import proofs.«418107_j79233556677137_3_alg».proof.Defs
import proofs.«418107_j79233556677137_3_alg».proof.Proof.Gen.Kernel
import proofs.«418107_j79233556677137_3_alg».proof.Proof.Gen.KernelIdeal
import proofs.«418107_j79233556677137_3_alg».proof.Proof.Gen.ReferenceIdeal
import proofs.«418107_j79233556677137_3_alg».proof.Proof.Gen.Pre_finite_inputs
import proofs.«418107_j79233556677137_3_alg».proof.Proof.Gen.ReferenceIdeal.Run
import proofs.«418107_j79233556677137_3_alg».proof.Proof.K.Run
import proofs.«418107_j79233556677137_3_alg».proof.Proof.KI.KVal
import proofs.«418107_j79233556677137_3_alg».proof.Proof.RefVal
import proofs.«418107_j79233556677137_3_alg».proof.Proof.Algebra
import proofs.«418107_j79233556677137_3_alg».proof.Proof.Finite
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

theorem preserves : Cert.preserves_Kernel_KernelIdeal :=
  ⟨IdealRules.truncf_extf.statement _ .f32 .bf16, IdealRules.truncf_extf.statement _ .f32 .bf16⟩

theorem real_of_pre (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) :
    (Cert.KernelIdeal.Fr.argsOf m c).Real :=
  Cert.Finite.args_real _ _ _ _ _ _ _ _ _ _ _ _ _ _ _ _ _ _ (hpre c)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.toArr (Cert.Spec.Gref (Cert.KernelIdeal.Fr.argsOf m c)), ?_, ?_⟩
  · refine (θ_run Cert.KernelIdeal.defs _ _).mono (fun r h c => ⟨(h c).1.trans ?_, (h c).2⟩)
      (Cert.KernelIdeal.Fr.run_value (F := Ideal) m ρ)
    rw [Cert.KernelIdeal.Fr.kernel_value, Cert.Spec.Gker_eq_Gref _ (real_of_pre m hpre c)]
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.RefValue.ref_value]
    unfold Cert.KernelIdeal.Fr.argsOf
    rw [h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
